-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x4096 : Shape := ⟨2, ![512, 4096]⟩
abbrev S2048x512 : Shape := ⟨2, ![2048, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S4096x512 .f32) (main_arg1 : FVec F S512x4096 .f32) (main_arg2 : FVec F S2048x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S4096x512 : Shape := ⟨2, ![4096, 512]⟩
abbrev S512x4096 : Shape := ⟨2, ![512, 4096]⟩
abbrev S2048x512 : Shape := ⟨2, ![2048, 512]⟩
abbrev S4096x4096 : Shape := ⟨2, ![4096, 4096]⟩
abbrev S1x4096 : Shape := ⟨2, ![1, 4096]⟩
abbrev S1024x512 : Shape := ⟨2, ![1024, 512]⟩
abbrev S512x1024 : Shape := ⟨2, ![512, 1024]⟩
abbrev S1024x1024 : Shape := ⟨2, ![1024, 1024]⟩
abbrev S1x1024 : Shape := ⟨2, ![1, 1024]⟩
abbrev S1024 : Shape := ⟨1, ![1024]⟩
abbrev S2048x4096 : Shape := ⟨2, ![2048, 4096]⟩
abbrev S2048x1 : Shape := ⟨2, ![2048, 1]⟩
abbrev S1024x1 : Shape := ⟨2, ![1024, 1]⟩
abbrev S512x1 : Shape := ⟨2, ![512, 1]⟩

abbrev nBuf : Space → Nat
  | .hbm => 8
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S2048x512, .f32⟩
  | .hbm, ⟨3, _⟩ => ⟨S4096x4096, .bf16⟩
  | .hbm, ⟨4, _⟩ => ⟨S1x4096, .f32⟩
  | .hbm, ⟨5, _⟩ => ⟨S2048x4096, .bf16⟩
  | .hbm, ⟨6, _⟩ => ⟨S2048x1, .f32⟩
  | .hbm, ⟨7, _⟩ => ⟨S2048x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1024, .bf16⟩
  | .local _ .vmem, ⟨14, _⟩ => ⟨S1024x1024, .bf16⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S512x1, .f32⟩
  | .local _ .vmem, ⟨25, _⟩ => ⟨S512x1, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  reduces_S1024x1024_S1024 : S1024x1024.Reduces [0] S1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024_2 : S1024x1024.Reduces [1] S1024
  shapeCasts_S1024_S1024x1 : S1024.ShapeCasts S1024x1
  shapeCasts_S512x1024_S512x1024 : S512x1024.ShapeCasts S512x1024
  shapeCasts_S1024x1024_S1024x1024 : S1024x1024.ShapeCasts S1024x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  dot_S1024x512_S512x1024_S1024x1024_1_0_0_1_n_n_wf : DotDims.WF S1024x512 S512x1024 S1024x1024 [1] [0] [0] [1] [] []
  dot_S1024x512_S1024x512_S1024x1024_1_1_0_0_n_n_wf : DotDims.WF S1024x512 S1024x512 S1024x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .f32 = 32 ∨ (Rect.block (s := S512x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x512.size a
  hwx1_0 : ∀ i : grid1.Coords, EltTy.bits .f32 = 32 ∨ (Rect.block (s := S2048x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .f32 = 32 ∨ (Rect.block (s := S4096x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S2048x4096.size a
  hwx1_2 : ∀ i : grid1.Coords, EltTy.bits .bf16 = 32 ∨ (Rect.block (s := S2048x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x4096.size a
  hwx2_0 : ∀ i : grid2.Coords, EltTy.bits .bf16 = 32 ∨ (Rect.block (s := S2048x4096) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S2048x1.size a
  hwx2_3 : ∀ i : grid2.Coords, EltTy.bits .f32 = 32 ∨ (Rect.block (s := S2048x1) S512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S2048x4096.size a
  hwx2_4 : ∀ i : grid2.Coords, EltTy.bits .f32 = 32 ∨ (Rect.block (s := S2048x4096) S512x1024.size (cc2_transform_4 i) (hinb2_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1024x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S512x4096 : Shape := ⟨2, ![512, 4096]⟩
abbrev S2048x512 : Shape := ⟨2, ![2048, 512]⟩
abbrev S4096x4096 : Shape := ⟨2, ![4096, 4096]⟩
abbrev S512x2048 : Shape := ⟨2, ![512, 2048]⟩
abbrev S4096x2048 : Shape := ⟨2, ![4096, 2048]⟩
abbrev S_ : Shape := ⟨0, ![]⟩
abbrev S4096 : Shape := ⟨1, ![4096]⟩
abbrev S1x4096 : Shape := ⟨2, ![1, 4096]⟩
abbrev S2048x4096 : Shape := ⟨2, ![2048, 4096]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S2048x512, .f32⟩
  | .hbm, ⟨3, _⟩ => ⟨S4096x4096, .f32⟩
  | .hbm, ⟨4, _⟩ => ⟨S512x2048, .f32⟩
  | .hbm, ⟨5, _⟩ => ⟨S4096x2048, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S4096x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S2048x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S2048x512_S512x2048_1_0 : S2048x512.Transposes [1, 0] S512x2048
  reducesTo_S4096x4096_S4096_d0 : S4096x4096.ReducesTo [0] S4096
  h_S_ : 0 < S_.numel
  bcast_S4096_S1x4096_1 : S4096.BroadcastsInDim S1x4096 (![1] : Fin 1 → Fin S1x4096.rank)
  transposes_S4096x2048_S2048x4096_1_0 : S4096x2048.Transposes [1, 0] S2048x4096
  bcast_S_S2048x4096 : S_.BroadcastsInDim S2048x4096 (![] : Fin 0 → Fin S2048x4096.rank)
  bcast_S1x4096_S2048x4096_0_1 : S1x4096.BroadcastsInDim S2048x4096 (![0, 1] : Fin 2 → Fin S2048x4096.rank)
  reducesTo_S4096x2048_S2048_d0 : S4096x2048.ReducesTo [0] S2048
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  dot_S4096x512_S512x4096_S4096x4096_1_0_0_1_n_n_wf : DotDims.WF S4096x512 S512x4096 S4096x4096 [1] [0] [0] [1] [] []
  dot_S4096x512_S512x2048_S4096x2048_1_0_0_1_n_n_wf : DotDims.WF S4096x512 S512x2048 S4096x2048 [1] [0] [0] [1] [] []
  dot_S2048x4096_S4096x4096_S2048x4096_1_0_0_1_n_n_wf : DotDims.WF S2048x4096 S4096x4096 S2048x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.KI.R0.Runs.lean ====
import proofs.«173626_j55740085568003_1_alg».proof.Proof.Gen.KernelIdeal.Launch
import proofs.«173626_j55740085568003_1_alg».proof.Proof.Gen.KernelIdeal.Skeleton
import proofs.«173626_j55740085568003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1024x512 .f32 := win0_0.stage (cfg0.slots t 0)
abbrev ms0_1 (t : Fin cfg0.N) : Memref sig .tc .vmem S512x1024 .f32 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S1x1024 .f32 := win0_3.stage (cfg0.slots t 3)

abbrev scM0_0 : Memref sig .tc .vmem S1x1024 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(((∃ d, owns (c : Thread nD τ) scM0_0 fullShare d) ∗ rest0 (F := F) c) ∗ (∃ r, prngReg c r)) := by
  unfold Pipeline.ΦA
  rw [Pipeline.scopedRest_split_of_list spec0 c [cc0_scratch0] (by decide) (by decide)]
  simp only [scM0_0, owns_whole, bigSepL]
  try rfl

end Cert.KernelIdeal.Hand

end
-- ==== Proof.KI.R0.RunA.lean ====
import proofs.«173626_j55740085568003_1_alg».proof.Proof.KI.R0.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun0_A (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S1024x512 .f32) (x1 : Vec F S512x1024 .f32) :
    Σ' (L2 : List (View.Piece (Elt F) S1024x1024 .bf16)), { LS0 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, ?_, fun xi3 E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Hand

end
-- ==== Proof.KI.R0.RunB.lean ====
import proofs.«173626_j55740085568003_1_alg».proof.Proof.KI.R0.RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun0_B (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S1024x512 .f32) (x1 : Vec F S512x1024 .f32) (xs0 : Vec F S1x1024 .f32) :
    Σ' (L2 : List (View.Piece (Elt F) S1024x1024 .bf16)), { LS0 : List (View.Piece (Elt F) S1x1024 .f32) //
      ∀ (xi3 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, ?_, fun xi3 E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Hand

end
-- ==== Proof.KI.R0.RunC.lean ====
import proofs.«173626_j55740085568003_1_alg».proof.Proof.KI.R0.RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun0_C (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S1024x512 .f32) (x1 : Vec F S512x1024 .f32) (xs0 : Vec F S1x1024 .f32) :
    Σ' (L2 : List (View.Piece (Elt F) S1024x1024 .bf16)) (L3 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__xm_kernel i arg2 harg2 arg3 harg3 arg4 harg4 arg5 harg5 arg6 harg6) K } := by
  refine ⟨?_, ?_, ?_, fun E K => ?run⟩
  case run =>
    simp only [cc0__xm_kernel_eq_skeleton]; unfold cc0__xm_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.KI.R0.Body.lean ====
import proofs.«173626_j55740085568003_1_alg».proof.Proof.KI.R0.RunC
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz0 : (![0, 0] : Fin 2 → Nat) = fun _ => 0 := funext fun a => by match a with | ⟨0, _⟩ => rfl | ⟨1, _⟩ => rfl

section
variable (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole)

/-! A case's stores tile the buffer, so it reads back as the stored value whatever it held before. -/

section
variable (hc0 : cond0_0 i) (hc1 : ¬cond0_1 i) (x0 : Vec F S1024x512 .f32) (x1 : Vec F S512x1024 .f32)
theorem left0_A_2 {v : View sig .tc .vmem S1024x1024 .bf16} {f : v.ty.Contents (Elt F)} :
    v.read (Elt F) (v.writes (Elt F) f (kernelRun0_A c i arg2 harg2 arg3 harg3 arg4 harg4 arg5 harg5 arg6 harg6 hc0 hc1 x0 x1).1) = k0_pay3 x0 x1 := by
  rw [View.read_writes_eq_canon _ _ _ (View.cover_of_tiledL _ S1024x1024.size (by sl_kernel_rfl))]
  unfold kernelRun0_A
  dsimp only
  sl_unfold_words
  rw [View.canon_unit_zero hz0]
  simp only [View.readAt_eq_ld, harg2.read_unread, harg3.read_unread, View.ld_unit_zero (S := S1024x512) hz0, View.ld_unit_zero (S := S512x1024) hz0]
theorem left0_A_0 {v : View sig .tc .vmem S1x1024 .f32} {f : v.ty.Contents (Elt F)} :
    v.read (Elt F) (v.writes (Elt F) f (kernelRun0_A c i arg2 harg2 arg3 harg3 arg4 harg4 arg5 harg5 arg6 harg6 hc0 hc1 x0 x1).2.1) = k0_pay4 x0 x1 (k0_pay1 (F := F)) := by
  rw [View.read_writes_eq_canon _ _ _ (View.cover_of_tiledL _ S1x1024.size (by sl_kernel_rfl))]
  unfold kernelRun0_A
  dsimp only
  sl_unfold_words
  rw [View.canon_cons_unit_zero (S := S1x1024) hz0, View.readCov_unit_zero (S := S1x1024) _ hz0]
  simp only [View.readAt_eq_ld, harg2.read_unread, harg3.read_unread, View.ld_unit_zero (S := S1024x512) hz0, View.ld_unit_zero (S := S512x1024) hz0]
end

section
variable (hc0 : ¬cond0_0 i) (hc1 : ¬cond0_1 i) (x0 : Vec F S1024x512 .f32) (x1 : Vec F S512x1024 .f32) (xs0 : Vec F S1x1024 .f32)
theorem left0_B_2 {v : View sig .tc .vmem S1024x1024 .bf16} {f : v.ty.Contents (Elt F)} :
    v.read (Elt F) (v.writes (Elt F) f (kernelRun0_B c i arg2 harg2 arg3 harg3 arg4 harg4 arg5 harg5 arg6 harg6 hc0 hc1 x0 x1 xs0).1) = k0_pay3 x0 x1 := by
  rw [View.read_writes_eq_canon _ _ _ (View.cover_of_tiledL _ S1024x1024.size (by sl_kernel_rfl))]
  unfold kernelRun0_B
  dsimp only
  sl_unfold_words
  rw [View.canon_unit_zero hz0]
  simp only [View.readAt_eq_ld, harg2.read_unread, harg3.read_unread, View.ld_unit_zero (S := S1024x512) hz0, View.ld_unit_zero (S := S512x1024) hz0]
theorem left0_B_0 {v : View sig .tc .vmem S1x1024 .f32} {f : v.ty.Contents (Elt F)} :
    v.read (Elt F) (v.writes (Elt F) f (kernelRun0_B c i arg2 harg2 arg3 harg3 arg4 harg4 arg5 harg5 arg6 harg6 hc0 hc1 x0 x1 xs0).2.1) = k0_pay4 x0 x1 xs0 := by
  rw [View.read_writes_eq_canon _ _ _ (View.cover_of_tiledL _ S1x1024.size (by sl_kernel_rfl))]
  unfold kernelRun0_B
  dsimp only
  sl_unfold_words
  rw [View.canon_unit_zero hz0]
  simp only [View.readAt_eq_ld, harg2.read_unread, harg3.read_unread, harg6.read_unread, View.ld_unit_zero (S := S1024x512) hz0, View.ld_unit_zero (S := S512x1024) hz0, View.ld_unit_zero (S := S1x1024) hz0]
end

section
variable (hc0 : ¬cond0_0 i) (hc1 : cond0_1 i) (x0 : Vec F S1024x512 .f32) (x1 : Vec F S512x1024 .f32) (xs0 : Vec F S1x1024 .f32)
theorem left0_C_2 {v : View sig .tc .vmem S1024x1024 .bf16} {f : v.ty.Contents (Elt F)} :
    v.read (Elt F) (v.writes (Elt F) f (kernelRun0_C c i arg2 harg2 arg3 harg3 arg4 harg4 arg5 harg5 arg6 harg6 hc0 hc1 x0 x1 xs0).1) = k0_pay3 x0 x1 := by
  rw [View.read_writes_eq_canon _ _ _ (View.cover_of_tiledL _ S1024x1024.size (by sl_kernel_rfl))]
  unfold kernelRun0_C
  dsimp only
  sl_unfold_words
  rw [View.canon_unit_zero hz0]
  simp only [View.readAt_eq_ld, harg2.read_unread, harg3.read_unread, View.ld_unit_zero (S := S1024x512) hz0, View.ld_unit_zero (S := S512x1024) hz0]
theorem left0_C_3 {v : View sig .tc .vmem S1x1024 .f32} {f : v.ty.Contents (Elt F)} :
    v.read (Elt F) (v.writes (Elt F) f (kernelRun0_C c i arg2 harg2 arg3 harg3 arg4 harg4 arg5 harg5 arg6 harg6 hc0 hc1 x0 x1 xs0).2.1) = k0_pay4 x0 x1 xs0 := by
  rw [View.read_writes_eq_canon _ _ _ (View.cover_of_tiledL _ S1x1024.size (by sl_kernel_rfl))]
  unfold kernelRun0_C
  dsimp only
  sl_unfold_words
  rw [View.canon_unit_zero hz0, View.readCov_unit_zero (S := S1x1024) _ hz0]
  simp only [View.readAt_eq_ld, harg2.read_unread, harg3.read_unread, harg6.read_unread, View.ld_unit_zero (S := S1024x512) hz0, View.ld_unit_zero (S := S512x1024) hz0, View.ld_unit_zero (S := S1x1024) hz0]
theorem left0_C_0 {v : View sig .tc .vmem S1x1024 .f32} {f : v.ty.Contents (Elt F)} :
    v.read (Elt F) (v.writes (Elt F) f (kernelRun0_C c i arg2 harg2 arg3 harg3 arg4 harg4 arg5 harg5 arg6 harg6 hc0 hc1 x0 x1 xs0).2.2.1) = k0_pay4 x0 x1 xs0 := by
  rw [View.read_writes_eq_canon _ _ _ (View.cover_of_tiledL _ S1x1024.size (by sl_kernel_rfl))]
  unfold kernelRun0_C
  dsimp only
  sl_unfold_words
  rw [View.canon_unit_zero hz0]
  simp only [View.readAt_eq_ld, harg2.read_unread, harg3.read_unread, harg6.read_unread, View.ld_unit_zero (S := S1024x512) hz0, View.ld_unit_zero (S := S512x1024) hz0, View.ld_unit_zero (S := S1x1024) hz0]
end

end

section
variable (V : (c : Dev nD) → (b : Ref sig .tc) → Buf (Elt F) ((c : Thread nD τ).loc b))

/-- The accumulator after point n: this tile's column sums of squares added to zero at n-tile 0, to the previous point's value otherwise. -/
def accAt0 (c : Dev nD) : (n : ℕ) → n < cfg0.N → Vec F S1x1024 .f32
  | 0, hn => k0_pay4 (iblk0 V c 0 ⟨0, hn⟩) (iblk0 V c 1 ⟨0, hn⟩) k0_pay1
  | n + 1, hn => k0_pay4 (iblk0 V c 0 ⟨n + 1, hn⟩) (iblk0 V c 1 ⟨n + 1, hn⟩)
      (if (n + 1) % 4 = 0 then k0_pay1 else accAt0 c n (Nat.lt_of_succ_lt hn))

theorem accAt0_reset (c : Dev nD) (t : Fin cfg0.N) (h0 : t.val % 4 = 0) :
    accAt0 V c t.val t.isLt = k0_pay4 (iblk0 V c 0 t) (iblk0 V c 1 t) k0_pay1 := by
  obtain ⟨n, hn⟩ := t
  cases n with
  | zero => rfl
  | succ n => exact congrArg (k0_pay4 _ _) (if_pos h0)
theorem accAt0_step (c : Dev nD) (t : Fin cfg0.N) (h0 : ¬t.val % 4 = 0) :
    accAt0 V c t.val t.isLt = k0_pay4 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact congrArg (k0_pay4 _ _) (if_neg h0)

def PhiS0 (c : Dev nD) : (n : ℕ) → n ≤ cfg0.N → sProp 𝕄
  | 0, _ => Pipeline.ΦA spec0 c
  | n + 1, hn => iprop((owns (c : Thread nD τ) scM0_0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare (accAt0 V c n hn) ∗ rest0 (F := F) c) ∗ (∃ r, prngReg c r)) := rfl
theorem PhiS0_pos (c : Dev nD) (n : ℕ) (h : n ≤ cfg0.N) (hz : n ≠ 0) :
    PhiS0 V c n h = iprop((owns (c : Thread nD τ) scM0_0 fullShare (accAt0 V c (n - 1) (by omega)) ∗ rest0 (F := F) c) ∗ (∃ r, prngReg c r)) := by
  cases n with
  | zero => exact absurd rfl hz
  | succ n => rfl
theorem PhiS0_some (c : Dev nD) (n : ℕ) (h : n ≤ cfg0.N) :
    PhiS0 V c n h ⊢ iprop(((∃ d, owns (c : Thread nD τ) scM0_0 fullShare d) ∗ rest0 (F := F) c) ∗ (∃ r, prngReg c r)) := by
  cases n with
  | zero => rw [PhiS0_zero V c 0 h rfl, PhiA0_eq]
  | succ n =>
    rw [PhiS0_succ]
    iintro ⟨⟨HS0, Hrest⟩, Hg⟩
    isplitl [HS0 Hrest]
    · isplitl [HS0]; · iexists _; iexact HS0
      iexact Hrest
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t) (iblk0 V c 1 t)
    | ⟨3, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) (iblk0 V c 1 t) := by dsimp only [dat0]
theorem after0_3 (c : Dev nD) (t : Fin cfg0.N) : (dat0 V c).after 3 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [accAt0_reset V c t h0]
    rw [PhiS0_castSucc V c t]
    iintro ⟨HΦ, Ho, ⟨%d0, H0⟩, ⟨%d1, H1⟩, ⟨%d2, H2⟩, ⟨%d3, H3⟩⟩
    ihave HΦ' := (PhiS0_some V c _ _) $$ HΦ
    icases HΦ' with ⟨⟨HS0, Hrest⟩, Hg⟩
    iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 Hrest Hg]
    · isplitl [HS0 Hrest]
      · isplitl [HS0]
        · unfold owns; iexists _; isplitr
          swap; · iexact HS0
          ipureintro; exact left0_A_0 c _ _ _ _ _ _ _ _ _ _ _ _ _ _ _
        iexact Hrest
      iexact Hg
    isplitl [Ho]; · iexact Ho
    isplitl [H0]; · iexact H0
    isplitl [H1]; · iexact H1
    isplitl [H2]
    · unfold owns; iexists _; isplitr
      swap; · iexact H2
      ipureintro; exact left0_A_2 c _ _ _ _ _ _ _ _ _ _ _ _ _ _ _
    iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_step V c t h0]
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hrest Hg]
      · isplitl [HS0 Hrest]
        · isplitl [HS0]
          · unfold owns; iexists _; isplitr
            swap; · iexact HS0
            ipureintro; exact left0_C_0 c _ _ _ _ _ _ _ _ _ _ _ _ _ _ _ _
          iexact Hrest
        iexact Hg
      isplitl [Ho]; · iexact Ho
      isplitl [H0]; · iexact H0
      isplitl [H1]; · iexact H1
      isplitl [H2]
      · unfold owns; iexists _; isplitr
        swap; · iexact H2
        ipureintro; exact left0_C_2 c _ _ _ _ _ _ _ _ _ _ _ _ _ _ _ _
      unfold owns; iexists _; isplitr
      swap; · iexact H3
      ipureintro; exact left0_C_3 c _ _ _ _ _ _ _ _ _ _ _ _ _ _ _ _
    · rw [Dat.leavesExact_idle (dat0 V c) 3 t (idleAt0_3 t (fun h => h1 ((hcond0_1 t).mp h))) (noFlush0_3 t (fun h => h1 ((hcond0_1 t).mp h)))]
      rw [accAt0_step V c t h0]
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact left0_B_0 c _ _ _ _ _ _ _ _ _ _ _ _ _ _ _ _
          iexact Hrest
        iexact Hg
      isplitl [Ho]; · iexact Ho
      isplitl [H0]; · iexact H0
      isplitl [H1]; · iexact H1
      isplitl [H2]
      · unfold owns; iexists _; isplitr
        swap; · iexact H2
        ipureintro; exact left0_B_2 c _ _ _ _ _ _ _ _ _ _ _ _ _ _ _ _
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_some V c _ _

end

end Cert.KernelIdeal.Hand

end
-- ==== Proof.KI.R1.Runs.lean ====
import proofs.«173626_j55740085568003_1_alg».proof.Proof.Gen.KernelIdeal.Launch
import proofs.«173626_j55740085568003_1_alg».proof.Proof.Gen.KernelIdeal.Skeleton
import proofs.«173626_j55740085568003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S1024x512 .f32 := win1_0.stage (cfg1.slots t 0)
abbrev ms1_1 (t : Fin cfg1.N) : Memref sig .tc .vmem S1024x512 .f32 := win1_1.stage (cfg1.slots t 1)
abbrev ms1_2 (t : Fin cfg1.N) : Memref sig .tc .vmem S1024x1024 .bf16 := win1_2.stage (cfg1.slots t 2)
abbrev ms1_3 (t : Fin cfg1.N) : Memref sig .tc .vmem S1024x1 .f32 := win1_3.stage (cfg1.slots t 3)

abbrev scM1_0 : Memref sig .tc .vmem S1024x1 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole, bigSepL]
  try rfl

end Cert.KernelIdeal.Hand

end
-- ==== Proof.KI.R1.RunA.lean ====
import proofs.«173626_j55740085568003_1_alg».proof.Proof.KI.R1.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun1_A (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x512 .f32) (x1 : Vec F S1024x512 .f32) :
    Σ' (L2 : List (View.Piece (Elt F) S1024x1024 .bf16)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__xct_kernel i arg2 harg2 arg3 harg3 arg4 harg4 arg5 harg5 arg6 harg6) K } := by
  refine ⟨?_, ?_, fun xi3 E K => ?run⟩
  case run =>
    simp only [cc1__xct_kernel_eq_skeleton]; unfold cc1__xct_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Hand

end
-- ==== Proof.KI.R1.RunB.lean ====
import proofs.«173626_j55740085568003_1_alg».proof.Proof.KI.R1.RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun1_B (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x512 .f32) (x1 : Vec F S1024x512 .f32) (xs0 : Vec F S1024x1 .f32) :
    Σ' (L2 : List (View.Piece (Elt F) S1024x1024 .bf16)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__xct_kernel i arg2 harg2 arg3 harg3 arg4 harg4 arg5 harg5 arg6 harg6) K } := by
  refine ⟨?_, ?_, fun xi3 E K => ?run⟩
  case run =>
    simp only [cc1__xct_kernel_eq_skeleton]; unfold cc1__xct_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Hand

end
-- ==== Proof.KI.R1.RunC.lean ====
import proofs.«173626_j55740085568003_1_alg».proof.Proof.KI.R1.RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun1_C (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x512 .f32) (x1 : Vec F S1024x512 .f32) (xs0 : Vec F S1024x1 .f32) :
    Σ' (L2 : List (View.Piece (Elt F) S1024x1024 .bf16)) (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__xct_kernel i arg2 harg2 arg3 harg3 arg4 harg4 arg5 harg5 arg6 harg6) K } := by
  refine ⟨?_, ?_, ?_, fun E K => ?run⟩
  case run =>
    simp only [cc1__xct_kernel_eq_skeleton]; unfold cc1__xct_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.KI.R1.Body.lean ====
import proofs.«173626_j55740085568003_1_alg».proof.Proof.KI.R1.RunC
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz1 : (![0, 0] : Fin 2 → Nat) = fun _ => 0 := funext fun a => by match a with | ⟨0, _⟩ => rfl | ⟨1, _⟩ => rfl

section
variable (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole)

/-! A case's stores tile the buffer, so it reads back as the stored value whatever it held before. -/

section
variable (hc0 : cond1_0 i) (hc1 : ¬cond1_1 i) (x0 : Vec F S1024x512 .f32) (x1 : Vec F S1024x512 .f32)
theorem left1_A_2 {v : View sig .tc .vmem S1024x1024 .bf16} {f : v.ty.Contents (Elt F)} :
    v.read (Elt F) (v.writes (Elt F) f (kernelRun1_A c i arg2 harg2 arg3 harg3 arg4 harg4 arg5 harg5 arg6 harg6 hc0 hc1 x0 x1).1) = k1_pay3 x0 x1 := by
  rw [View.read_writes_eq_canon _ _ _ (View.cover_of_tiledL _ S1024x1024.size (by sl_kernel_rfl))]
  unfold kernelRun1_A
  dsimp only
  sl_unfold_words
  rw [View.canon_unit_zero hz1]
  simp only [View.readAt_eq_ld, harg2.read_unread, harg3.read_unread, View.ld_unit_zero (S := S1024x512) hz1]
theorem left1_A_0 {v : View sig .tc .vmem S1024x1 .f32} {f : v.ty.Contents (Elt F)} :
    v.read (Elt F) (v.writes (Elt F) f (kernelRun1_A c i arg2 harg2 arg3 harg3 arg4 harg4 arg5 harg5 arg6 harg6 hc0 hc1 x0 x1).2.1) = k1_pay4 x0 x1 (k1_pay1 (F := F)) := by
  rw [View.read_writes_eq_canon _ _ _ (View.cover_of_tiledL _ S1024x1.size (by sl_kernel_rfl))]
  unfold kernelRun1_A
  dsimp only
  sl_unfold_words
  rw [View.canon_cons_unit_zero (S := S1024x1) hz1, View.readCov_unit_zero (S := S1024x1) _ hz1]
  simp only [View.readAt_eq_ld, harg2.read_unread, harg3.read_unread, View.ld_unit_zero (S := S1024x512) hz1]
end

section
variable (hc0 : ¬cond1_0 i) (hc1 : ¬cond1_1 i) (x0 : Vec F S1024x512 .f32) (x1 : Vec F S1024x512 .f32) (xs0 : Vec F S1024x1 .f32)
theorem left1_B_2 {v : View sig .tc .vmem S1024x1024 .bf16} {f : v.ty.Contents (Elt F)} :
    v.read (Elt F) (v.writes (Elt F) f (kernelRun1_B c i arg2 harg2 arg3 harg3 arg4 harg4 arg5 harg5 arg6 harg6 hc0 hc1 x0 x1 xs0).1) = k1_pay3 x0 x1 := by
  rw [View.read_writes_eq_canon _ _ _ (View.cover_of_tiledL _ S1024x1024.size (by sl_kernel_rfl))]
  unfold kernelRun1_B
  dsimp only
  sl_unfold_words
  rw [View.canon_unit_zero hz1]
  simp only [View.readAt_eq_ld, harg2.read_unread, harg3.read_unread, View.ld_unit_zero (S := S1024x512) hz1]
theorem left1_B_0 {v : View sig .tc .vmem S1024x1 .f32} {f : v.ty.Contents (Elt F)} :
    v.read (Elt F) (v.writes (Elt F) f (kernelRun1_B c i arg2 harg2 arg3 harg3 arg4 harg4 arg5 harg5 arg6 harg6 hc0 hc1 x0 x1 xs0).2.1) = k1_pay4 x0 x1 xs0 := by
  rw [View.read_writes_eq_canon _ _ _ (View.cover_of_tiledL _ S1024x1.size (by sl_kernel_rfl))]
  unfold kernelRun1_B
  dsimp only
  sl_unfold_words
  rw [View.canon_unit_zero hz1]
  simp only [View.readAt_eq_ld, harg2.read_unread, harg3.read_unread, harg6.read_unread, View.ld_unit_zero (S := S1024x512) hz1, View.ld_unit_zero (S := S1024x1) hz1]
end

section
variable (hc0 : ¬cond1_0 i) (hc1 : cond1_1 i) (x0 : Vec F S1024x512 .f32) (x1 : Vec F S1024x512 .f32) (xs0 : Vec F S1024x1 .f32)
theorem left1_C_2 {v : View sig .tc .vmem S1024x1024 .bf16} {f : v.ty.Contents (Elt F)} :
    v.read (Elt F) (v.writes (Elt F) f (kernelRun1_C c i arg2 harg2 arg3 harg3 arg4 harg4 arg5 harg5 arg6 harg6 hc0 hc1 x0 x1 xs0).1) = k1_pay3 x0 x1 := by
  rw [View.read_writes_eq_canon _ _ _ (View.cover_of_tiledL _ S1024x1024.size (by sl_kernel_rfl))]
  unfold kernelRun1_C
  dsimp only
  sl_unfold_words
  rw [View.canon_unit_zero hz1]
  simp only [View.readAt_eq_ld, harg2.read_unread, harg3.read_unread, View.ld_unit_zero (S := S1024x512) hz1]
theorem left1_C_3 {v : View sig .tc .vmem S1024x1 .f32} {f : v.ty.Contents (Elt F)} :
    v.read (Elt F) (v.writes (Elt F) f (kernelRun1_C c i arg2 harg2 arg3 harg3 arg4 harg4 arg5 harg5 arg6 harg6 hc0 hc1 x0 x1 xs0).2.1) = k1_pay4 x0 x1 xs0 := by
  rw [View.read_writes_eq_canon _ _ _ (View.cover_of_tiledL _ S1024x1.size (by sl_kernel_rfl))]
  unfold kernelRun1_C
  dsimp only
  sl_unfold_words
  rw [View.canon_unit_zero hz1, View.readCov_unit_zero (S := S1024x1) _ hz1]
  simp only [View.readAt_eq_ld, harg2.read_unread, harg3.read_unread, harg6.read_unread, View.ld_unit_zero (S := S1024x512) hz1, View.ld_unit_zero (S := S1024x1) hz1]
theorem left1_C_0 {v : View sig .tc .vmem S1024x1 .f32} {f : v.ty.Contents (Elt F)} :
    v.read (Elt F) (v.writes (Elt F) f (kernelRun1_C c i arg2 harg2 arg3 harg3 arg4 harg4 arg5 harg5 arg6 harg6 hc0 hc1 x0 x1 xs0).2.2.1) = k1_pay4 x0 x1 xs0 := by
  rw [View.read_writes_eq_canon _ _ _ (View.cover_of_tiledL _ S1024x1.size (by sl_kernel_rfl))]
  unfold kernelRun1_C
  dsimp only
  sl_unfold_words
  rw [View.canon_unit_zero hz1]
  simp only [View.readAt_eq_ld, harg2.read_unread, harg3.read_unread, harg6.read_unread, View.ld_unit_zero (S := S1024x512) hz1, View.ld_unit_zero (S := S1024x1) hz1]
end

end

section
variable (V : (c : Dev nD) → (b : Ref sig .tc) → Buf (Elt F) ((c : Thread nD τ).loc b))

/-- The accumulator after point n: this tile's row sums of squares added to zero at n-tile 0, to the previous point's value otherwise. -/
def accAt1 (c : Dev nD) : (n : ℕ) → n < cfg1.N → Vec F S1024x1 .f32
  | 0, hn => k1_pay4 (iblk1 V c 0 ⟨0, hn⟩) (iblk1 V c 1 ⟨0, hn⟩) k1_pay1
  | n + 1, hn => k1_pay4 (iblk1 V c 0 ⟨n + 1, hn⟩) (iblk1 V c 1 ⟨n + 1, hn⟩)
      (if (n + 1) % 4 = 0 then k1_pay1 else accAt1 c n (Nat.lt_of_succ_lt hn))

theorem accAt1_reset (c : Dev nD) (t : Fin cfg1.N) (h0 : t.val % 4 = 0) :
    accAt1 V c t.val t.isLt = k1_pay4 (iblk1 V c 0 t) (iblk1 V c 1 t) k1_pay1 := by
  obtain ⟨n, hn⟩ := t
  cases n with
  | zero => rfl
  | succ n => exact congrArg (k1_pay4 _ _) (if_pos h0)
theorem accAt1_step (c : Dev nD) (t : Fin cfg1.N) (h0 : ¬t.val % 4 = 0) :
    accAt1 V c t.val t.isLt = k1_pay4 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact congrArg (k1_pay4 _ _) (if_neg h0)

def PhiS1 (c : Dev nD) : (n : ℕ) → n ≤ cfg1.N → sProp 𝕄
  | 0, _ => Pipeline.ΦA spec1 c
  | n + 1, hn => iprop((owns (c : Thread nD τ) scM1_0 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare (accAt1 V c n hn) ∗ rest1 (F := F) c) ∗ (∃ r, prngReg c r)) := rfl
theorem PhiS1_pos (c : Dev nD) (n : ℕ) (h : n ≤ cfg1.N) (hz : n ≠ 0) :
    PhiS1 V c n h = iprop((owns (c : Thread nD τ) scM1_0 fullShare (accAt1 V c (n - 1) (by omega)) ∗ rest1 (F := F) c) ∗ (∃ r, prngReg c r)) := by
  cases n with
  | zero => exact absurd rfl hz
  | succ n => rfl
theorem PhiS1_some (c : Dev nD) (n : ℕ) (h : n ≤ cfg1.N) :
    PhiS1 V c n h ⊢ iprop(((∃ d, owns (c : Thread nD τ) scM1_0 fullShare d) ∗ rest1 (F := F) c) ∗ (∃ r, prngReg c r)) := by
  cases n with
  | zero => rw [PhiS1_zero V c 0 h rfl, PhiA1_eq]
  | succ n =>
    rw [PhiS1_succ]
    iintro ⟨⟨HS0, Hrest⟩, Hg⟩
    isplitl [HS0 Hrest]
    · isplitl [HS0]; · iexists _; iexact HS0
      iexact Hrest
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (iblk1 V c 0 t) (iblk1 V c 1 t)
    | ⟨3, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (iblk1 V c 0 t) (iblk1 V c 1 t) := by dsimp only [dat1]
theorem after1_3 (c : Dev nD) (t : Fin cfg1.N) : (dat1 V c).after 3 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [accAt1_reset V c t h0]
    rw [PhiS1_castSucc V c t]
    iintro ⟨HΦ, Ho, ⟨%d0, H0⟩, ⟨%d1, H1⟩, ⟨%d2, H2⟩, ⟨%d3, H3⟩⟩
    ihave HΦ' := (PhiS1_some V c _ _) $$ HΦ
    icases HΦ' with ⟨⟨HS0, Hrest⟩, Hg⟩
    iapply ((kernelRun1_A c (grid1.coords t) _ _ _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 Hrest Hg]
    · isplitl [HS0 Hrest]
      · isplitl [HS0]
        · unfold owns; iexists _; isplitr
          swap; · iexact HS0
          ipureintro; exact left1_A_0 c _ _ _ _ _ _ _ _ _ _ _ _ _ _ _
        iexact Hrest
      iexact Hg
    isplitl [Ho]; · iexact Ho
    isplitl [H0]; · iexact H0
    isplitl [H1]; · iexact H1
    isplitl [H2]
    · unfold owns; iexists _; isplitr
      swap; · iexact H2
      ipureintro; exact left1_A_2 c _ _ _ _ _ _ _ _ _ _ _ _ _ _ _
    iexists _; iexact H3
  · have hz : t.val ≠ 0 := by omega
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_step V c t h0]
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hrest Hg]
      · isplitl [HS0 Hrest]
        · isplitl [HS0]
          · unfold owns; iexists _; isplitr
            swap; · iexact HS0
            ipureintro; exact left1_C_0 c _ _ _ _ _ _ _ _ _ _ _ _ _ _ _ _
          iexact Hrest
        iexact Hg
      isplitl [Ho]; · iexact Ho
      isplitl [H0]; · iexact H0
      isplitl [H1]; · iexact H1
      isplitl [H2]
      · unfold owns; iexists _; isplitr
        swap; · iexact H2
        ipureintro; exact left1_C_2 c _ _ _ _ _ _ _ _ _ _ _ _ _ _ _ _
      unfold owns; iexists _; isplitr
      swap; · iexact H3
      ipureintro; exact left1_C_3 c _ _ _ _ _ _ _ _ _ _ _ _ _ _ _ _
    · rw [Dat.leavesExact_idle (dat1 V c) 3 t (idleAt1_3 t (fun h => h1 ((hcond1_1 t).mp h))) (noFlush1_3 t (fun h => h1 ((hcond1_1 t).mp h)))]
      rw [accAt1_step V c t h0]
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact left1_B_0 c _ _ _ _ _ _ _ _ _ _ _ _ _ _ _ _
          iexact Hrest
        iexact Hg
      isplitl [Ho]; · iexact Ho
      isplitl [H0]; · iexact H0
      isplitl [H1]; · iexact H1
      isplitl [H2]
      · unfold owns; iexists _; isplitr
        swap; · iexact H2
        ipureintro; exact left1_B_2 c _ _ _ _ _ _ _ _ _ _ _ _ _ _ _ _
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_some V c _ _

end

end Cert.KernelIdeal.Hand

end
-- ==== Proof.KI.R2.Runs.lean ====
import proofs.«173626_j55740085568003_1_alg».proof.Proof.Gen.KernelIdeal.Launch
import proofs.«173626_j55740085568003_1_alg».proof.Proof.Gen.KernelIdeal.Skeleton
import proofs.«173626_j55740085568003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev ms2_0 (t : Fin cfg2.N) : Memref sig .tc .vmem S512x1024 .bf16 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S1x1024 .f32 := win2_2.stage (cfg2.slots t 2)
abbrev ms2_3 (t : Fin cfg2.N) : Memref sig .tc .vmem S512x1 .f32 := win2_3.stage (cfg2.slots t 3)
abbrev ms2_4 (t : Fin cfg2.N) : Memref sig .tc .vmem S512x1024 .f32 := win2_4.stage (cfg2.slots t 4)

abbrev scM2_0 : Memref sig .tc .vmem S512x1024 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(((∃ d, owns (c : Thread nD τ) scM2_0 fullShare d) ∗ rest2 (F := F) c) ∗ (∃ r, prngReg c r)) := by
  unfold Pipeline.ΦA
  rw [Pipeline.scopedRest_split_of_list spec2 c [cc2_scratch0] (by decide) (by decide)]
  simp only [scM2_0, owns_whole, bigSepL]
  try rfl

end Cert.KernelIdeal.Hand

end
-- ==== Proof.KI.R2.RunA.lean ====
import proofs.«173626_j55740085568003_1_alg».proof.Proof.KI.R2.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_A (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole) (hc0 : cond2_0 i) (hc1 : ¬cond2_1 i)
    (x0 : Vec F S512x1024 .bf16) (x1 : Vec F S1024x1024 .bf16) (x2 : Vec F S1x1024 .f32) (x3 : Vec F S512x1 .f32) :
    { LS0 : List (View.Piece (Elt F) S512x1024 .f32) //
      ∀ (xi4 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨?_, fun xi4 E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.R2.RunB.lean ====
import proofs.«173626_j55740085568003_1_alg».proof.Proof.KI.R2.RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_B (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : ¬cond2_1 i)
    (x0 : Vec F S512x1024 .bf16) (x1 : Vec F S1024x1024 .bf16) (x2 : Vec F S1x1024 .f32) (x3 : Vec F S512x1 .f32) (xs0 : Vec F S512x1024 .f32) :
    { LS0 : List (View.Piece (Elt F) S512x1024 .f32) //
      ∀ (xi4 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨?_, fun xi4 E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.R2.RunC.lean ====
import proofs.«173626_j55740085568003_1_alg».proof.Proof.KI.R2.RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun2_C (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x1024 .bf16) (x1 : Vec F S1024x1024 .bf16) (x2 : Vec F S1x1024 .f32) (x3 : Vec F S512x1 .f32) (xs0 : Vec F S512x1024 .f32) :
    Σ' (L4 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__dist_kernel i arg3 harg3 arg4 harg4 arg5 harg5 arg6 harg6 arg7 harg7 arg8 harg8) K } := by
  refine ⟨?_, ?_, fun E K => ?run⟩
  case run =>
    simp only [cc2__dist_kernel_eq_skeleton]; unfold cc2__dist_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.R2.Body.lean ====
import proofs.«173626_j55740085568003_1_alg».proof.Proof.KI.R2.RunC
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by match a with | ⟨0, _⟩ => rfl | ⟨1, _⟩ => rfl

section
variable (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)

/-! A case's stores tile the buffer, so it reads back as the stored value whatever it held before. -/

section
variable (hc0 : cond2_0 i) (hc1 : ¬cond2_1 i) (x0 : Vec F S512x1024 .bf16) (x1 : Vec F S1024x1024 .bf16) (x2 : Vec F S1x1024 .f32) (x3 : Vec F S512x1 .f32)
theorem left2_A_0 {v : View sig .tc .vmem S512x1024 .f32} {f : v.ty.Contents (Elt F)} :
    v.read (Elt F) (v.writes (Elt F) f (kernelRun2_A c i arg3 harg3 arg4 harg4 arg5 harg5 arg6 harg6 arg7 harg7 arg8 harg8 hc0 hc1 x0 x1 x2 x3).1) = k2_pay2 (k2_pay1 (F := F)) x0 x1 := by
  rw [View.read_writes_eq_canon _ _ _ (View.cover_of_tiledL _ S512x1024.size (by sl_kernel_rfl))]
  unfold kernelRun2_A
  dsimp only
  sl_unfold_words
  rw [View.canon_cons_unit_zero (S := S512x1024) hz2, View.readCov_unit_zero (S := S512x1024) _ hz2]
  simp only [View.readAt_eq_ld, harg3.read_unread, harg4.read_unread, View.ld_unit_zero (S := S512x1024) hz2, View.ld_unit_zero (S := S1024x1024) hz2]
end

section
variable (hc0 : ¬cond2_0 i) (hc1 : ¬cond2_1 i) (x0 : Vec F S512x1024 .bf16) (x1 : Vec F S1024x1024 .bf16) (x2 : Vec F S1x1024 .f32) (x3 : Vec F S512x1 .f32) (xs0 : Vec F S512x1024 .f32)
theorem left2_B_0 {v : View sig .tc .vmem S512x1024 .f32} {f : v.ty.Contents (Elt F)} :
    v.read (Elt F) (v.writes (Elt F) f (kernelRun2_B c i arg3 harg3 arg4 harg4 arg5 harg5 arg6 harg6 arg7 harg7 arg8 harg8 hc0 hc1 x0 x1 x2 x3 xs0).1) = k2_pay2 xs0 x0 x1 := by
  rw [View.read_writes_eq_canon _ _ _ (View.cover_of_tiledL _ S512x1024.size (by sl_kernel_rfl))]
  unfold kernelRun2_B
  dsimp only
  sl_unfold_words
  rw [View.canon_unit_zero hz2]
  simp only [View.readAt_eq_ld, harg3.read_unread, harg4.read_unread, harg8.read_unread, View.ld_unit_zero (S := S512x1024) hz2, View.ld_unit_zero (S := S1024x1024) hz2]
end

section
variable (hc0 : ¬cond2_0 i) (hc1 : cond2_1 i) (x0 : Vec F S512x1024 .bf16) (x1 : Vec F S1024x1024 .bf16) (x2 : Vec F S1x1024 .f32) (x3 : Vec F S512x1 .f32) (xs0 : Vec F S512x1024 .f32)
theorem left2_C_4 {v : View sig .tc .vmem S512x1024 .f32} {f : v.ty.Contents (Elt F)} :
    v.read (Elt F) (v.writes (Elt F) f (kernelRun2_C c i arg3 harg3 arg4 harg4 arg5 harg5 arg6 harg6 arg7 harg7 arg8 harg8 hc0 hc1 x0 x1 x2 x3 xs0).1) = k2_pay3 x2 (k2_pay2 xs0 x0 x1) x3 := by
  rw [View.read_writes_eq_canon _ _ _ (View.cover_of_tiledL _ S512x1024.size (by sl_kernel_rfl))]
  unfold kernelRun2_C
  dsimp only
  sl_unfold_words
  rw [View.canon_unit_zero hz2, View.readCov_unit_zero (S := S512x1024) _ hz2]
  simp only [View.readAt_eq_ld, harg3.read_unread, harg4.read_unread, harg5.read_unread, harg6.read_unread, harg8.read_unread, View.ld_unit_zero (S := S512x1024) hz2, View.ld_unit_zero (S := S1024x1024) hz2, View.ld_unit_zero (S := S1x1024) hz2, View.ld_unit_zero (S := S512x1) hz2]
theorem left2_C_0 {v : View sig .tc .vmem S512x1024 .f32} {f : v.ty.Contents (Elt F)} :
    v.read (Elt F) (v.writes (Elt F) f (kernelRun2_C c i arg3 harg3 arg4 harg4 arg5 harg5 arg6 harg6 arg7 harg7 arg8 harg8 hc0 hc1 x0 x1 x2 x3 xs0).2.1) = k2_pay2 xs0 x0 x1 := by
  rw [View.read_writes_eq_canon _ _ _ (View.cover_of_tiledL _ S512x1024.size (by sl_kernel_rfl))]
  unfold kernelRun2_C
  dsimp only
  sl_unfold_words
  rw [View.canon_unit_zero hz2]
  simp only [View.readAt_eq_ld, harg3.read_unread, harg4.read_unread, harg8.read_unread, View.ld_unit_zero (S := S512x1024) hz2, View.ld_unit_zero (S := S1024x1024) hz2]
end

end

section
variable (V : (c : Dev nD) → (b : Ref sig .tc) → Buf (Elt F) ((c : Thread nD τ).loc b))

/-- The accumulator after point n: this tile's product added to zero at n-tile 0, to the previous point's value otherwise. -/
def accAt2 (c : Dev nD) : (n : ℕ) → n < cfg2.N → Vec F S512x1024 .f32
  | 0, hn => k2_pay2 k2_pay1 (iblk2 V c 0 ⟨0, hn⟩) (iblk2 V c 1 ⟨0, hn⟩)
  | n + 1, hn => k2_pay2 (if (n + 1) % 4 = 0 then k2_pay1 else accAt2 c n (Nat.lt_of_succ_lt hn))
      (iblk2 V c 0 ⟨n + 1, hn⟩) (iblk2 V c 1 ⟨n + 1, hn⟩)

theorem accAt2_reset (c : Dev nD) (t : Fin cfg2.N) (h0 : t.val % 4 = 0) :
    accAt2 V c t.val t.isLt = k2_pay2 k2_pay1 (iblk2 V c 0 t) (iblk2 V c 1 t) := by
  obtain ⟨n, hn⟩ := t
  cases n with
  | zero => rfl
  | succ n => exact congrArg (fun z => k2_pay2 z _ _) (if_pos h0)
theorem accAt2_step (c : Dev nD) (t : Fin cfg2.N) (h0 : ¬t.val % 4 = 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact congrArg (fun z => k2_pay2 z _ _) (if_neg h0)

def PhiS2 (c : Dev nD) : (n : ℕ) → n ≤ cfg2.N → sProp 𝕄
  | 0, _ => Pipeline.ΦA spec2 c
  | n + 1, hn => iprop((owns (c : Thread nD τ) scM2_0 fullShare (accAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2_0 fullShare (accAt2 V c n hn) ∗ rest2 (F := F) c) ∗ (∃ r, prngReg c r)) := rfl
theorem PhiS2_pos (c : Dev nD) (n : ℕ) (h : n ≤ cfg2.N) (hz : n ≠ 0) :
    PhiS2 V c n h = iprop((owns (c : Thread nD τ) scM2_0 fullShare (accAt2 V c (n - 1) (by omega)) ∗ rest2 (F := F) c) ∗ (∃ r, prngReg c r)) := by
  cases n with
  | zero => exact absurd rfl hz
  | succ n => rfl
theorem PhiS2_some (c : Dev nD) (n : ℕ) (h : n ≤ cfg2.N) :
    PhiS2 V c n h ⊢ iprop(((∃ d, owns (c : Thread nD τ) scM2_0 fullShare d) ∗ rest2 (F := F) c) ∗ (∃ r, prngReg c r)) := by
  cases n with
  | zero => rw [PhiS2_zero V c 0 h rfl, PhiA2_eq]
  | succ n =>
    rw [PhiS2_succ]
    iintro ⟨⟨HS0, Hrest⟩, Hg⟩
    isplitl [HS0 Hrest]
    · isplitl [HS0]; · iexists _; iexact HS0
      iexact Hrest
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (iblk2 V c 2 t) (accAt2 V c t.val t.isLt) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay3 (iblk2 V c 2 t) (accAt2 V c t.val t.isLt) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 4 = 0
  · have h1 : ¬t.val % 4 = 3 := by omega
    rw [Dat.leavesExact_idle (dat2 V c) 4 t (idleAt2_4 t (fun h => h1 ((hcond2_1 t).mp h))) (noFlush2_4 t (fun h => h1 ((hcond2_1 t).mp h)))]
    rw [accAt2_reset V c t h0]
    rw [PhiS2_castSucc V c t]
    iintro ⟨HΦ, Ho, ⟨%d0, H0⟩, ⟨%d1, H1⟩, ⟨%d2, H2⟩, ⟨%d3, H3⟩, ⟨%d4, H4⟩⟩
    ihave HΦ' := (PhiS2_some V c _ _) $$ HΦ
    icases HΦ' with ⟨⟨HS0, Hrest⟩, Hg⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hrest Hg]
    · isplitl [HS0 Hrest]
      · isplitl [HS0]
        · unfold owns; iexists _; isplitr
          swap; · iexact HS0
          ipureintro; exact left2_A_0 c _ _ _ _ _ _ _ _ _ _ _ _ _ _ _ _ _ _ _
        iexact Hrest
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [accAt2_step V c t h0]
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact left2_C_0 c _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact left2_C_4 c _ _ _ _ _ _ _ _ _ _ _ _ _ _ _ _ _ _ _ _
    · rw [Dat.leavesExact_idle (dat2 V c) 4 t (idleAt2_4 t (fun h => h1 ((hcond2_1 t).mp h))) (noFlush2_4 t (fun h => h1 ((hcond2_1 t).mp h)))]
      rw [accAt2_step V c t h0]
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact left2_B_0 c _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_some V c _ _

end

end Cert.KernelIdeal.Hand

end
-- ==== Proof.KI.Run.lean ====
import proofs.«173626_j55740085568003_1_alg».proof.Proof.KI.R0.Body
import proofs.«173626_j55740085568003_1_alg».proof.Proof.KI.R1.Body
import proofs.«173626_j55740085568003_1_alg».proof.Proof.KI.R2.Body

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev admH : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev vOf (W : Dev nD → Valuation τ sig (Elt F)) : (c : Dev nD) → (b : Ref sig .tc) → Buf (Elt F) ((c : Thread nD τ).loc b) := fun c b => W c b

section Region
variable {p : Fin 3} (W : Dev nD → Valuation τ sig (Elt F))
  (dat : (c : Dev nD) → Dat τ (Elt F) Unit ℕ (UR sig nD τ) ℕ (Pipeline.pin (pcfgs (F := F)) admH p) c)

/-- The buffers after a region: its arrays at their final contents, every other buffer unchanged. -/
def exitOf (c : Dev nD) : Valuation τ sig (Elt F) :=
  Pipeline.withArrays (Pipeline.pin (pcfgs (F := F)) admH p).spec c (W c) fun w => (dat c).arrAt w (Pipeline.pin (pcfgs (F := F)) admH p).N

theorem exitOf_arr (launch : Pipeline.LaunchFacts (nD := nD) (τ := τ) cfgs p) (c : Dev nD) (w : Fin (Pipeline.pin (pcfgs (F := F)) admH p).W) :
    exitOf W dat c (Proc.devRef .tc (Pipeline.arrRef (Pipeline.pin (pcfgs (F := F)) admH p).spec w)) = (dat c).arrAt w (Pipeline.pin (pcfgs (F := F)) admH p).N :=
  Pipeline.withArrays_arr _ launch.win.arr_inj c _ _ w
theorem exitOf_of_ne (c : Dev nD) (b : Ref sig .tc) (hb : ∀ w, Pipeline.arrRef (Pipeline.pin (pcfgs (F := F)) admH p).spec w ≠ b) :
    exitOf W dat c (Proc.devRef .tc b) = W c (Proc.devRef .tc b) :=
  Pipeline.withArrays_of_ne _ c _ _ b hb
end Region

set_option backward.isDefEq.respectTransparency.types false in
/-- Region p as one step of the whole run: from the buffers at W to the buffers at exitOf W. -/
def regionOf (pdats : (p : Fin 3) → (c : Dev nD) → Dat τ (Elt F) Unit ℕ (UR sig nD τ) ℕ (Pipeline.pin (pcfgs (F := F)) admH p) c)
    (p : Fin 3) (launch : Pipeline.LaunchFacts (nD := nD) (τ := τ) cfgs p) (W : Dev nD → Valuation τ sig (Elt F))
    (hbody : ∀ c, BodyObligation (pdats p c) (defs₀ (F := F)) Variants.none () Set.univ)
    (hq : ∀ c w, (pdats p c).q w = fullShare) (howed : ∀ c t, (pdats p c).owed t = 0) (hrec : ∀ c t, (pdats p c).recorded t = Set.univ)
    (hA : ∀ c w, (pdats p c).A w = vOf W c (Pipeline.arrRef (Pipeline.pin (pcfgs (F := F)) admH p).spec w))
    (hin : ∀ c, Pipeline.ΦA (Pipeline.pin (pcfgs (F := F)) admH p).spec c ⊢ (pdats p c).Φ 0)
    (hout : ∀ c, (pdats p c).Φ (Fin.last _) ⊢ Pipeline.ΦA (Pipeline.pin (pcfgs (F := F)) admH p).spec c) :
    Pipeline.RegionSeg (pcfgs (F := F)) admH pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (exitOf W (pdats p) c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admH p).spec c (vOf W c)
  hentry c := by
    rw [Pipeline.ownSems0_none]
    have hsplit := Pipeline.arrays_of_unscopedBufs (p := p) (pcfgs (F := F)) admH pdats launch.win launch.arr_whole c
      ((pdats p c).share_full (hq c)) (vOf W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W', HO⟩; iexists W'; isplitr; · ipureintro; exact fun x _ => Or.inl (by rw [hrec c]; exact Set.mem_univ x)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      launch.win launch.arr_whole c pdats ((pdats p c).share_full (hq c))
      (vOf W c) (vOf (exitOf W (pdats p)) c) ((pdats p c).arrAt · (Pipeline.pin (pcfgs (F := F)) admH p).N)
      (fun w => (exitOf_arr W (pdats p) launch c w).symm)
      (fun b hb => exitOf_of_ne W (pdats p) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W', -, HO⟩; iexists W'; iexact HO

variable (m : (ℓ : Loc nD τ sig) → Buf (Elt F) ℓ) (ρ : Dev nD → PrngReg)

abbrev W0 : Dev nD → Valuation τ sig (Elt F) := fun c b => (s₀ m ρ).mem ((c : Dev nD), b)
abbrev V0 := vOf (W0 m ρ)
def W1 := exitOf (p := 0) (W0 m ρ) (dat0 (V0 m ρ))
abbrev V1 := vOf (W1 m ρ)
def W2 := exitOf (p := 1) (W1 m ρ) (dat1 (V1 m ρ))
abbrev V2 := vOf (W2 m ρ)
def W3 := exitOf (p := 2) (W2 m ρ) (dat2 (V2 m ρ))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := exitOf_of_ne _ _ c main_arg0 (show ∀ w, Pipeline.arrRef spec2 w ≠ main_arg0 from by decide)
    _ = W1 m ρ c (Proc.devRef .tc main_arg0) := (exitOf_arr _ _ launch1 c 1).trans (((dat1 (V1 m ρ) c).arrAt_in 1 rfl _).trans (A_eq1 (V1 m ρ) c 1))
    _ = W0 m ρ c (Proc.devRef .tc main_arg0) := (exitOf_arr _ _ launch0 c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := exitOf_of_ne _ _ c main_arg1 (show ∀ w, Pipeline.arrRef spec2 w ≠ main_arg1 from by decide)
    _ = W1 m ρ c (Proc.devRef .tc main_arg1) := exitOf_of_ne _ _ c main_arg1 (show ∀ w, Pipeline.arrRef spec1 w ≠ main_arg1 from by decide)
    _ = W0 m ρ c (Proc.devRef .tc main_arg1) := (exitOf_arr _ _ launch0 c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := exitOf_of_ne _ _ c main_arg2 (show ∀ w, Pipeline.arrRef spec2 w ≠ main_arg2 from by decide)
    _ = W1 m ρ c (Proc.devRef .tc main_arg2) := (exitOf_arr _ _ launch1 c 0).trans (((dat1 (V1 m ρ) c).arrAt_in 0 rfl _).trans (A_eq1 (V1 m ρ) c 0))
    _ = W0 m ρ c (Proc.devRef .tc main_arg2) := exitOf_of_ne _ _ c main_arg2 (show ∀ w, Pipeline.arrRef spec0 w ≠ main_arg2 from by decide)
    _ = m ((c : Thread nD τ).loc main_arg2) := rfl

def pdats : (p : Fin 3) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V1 m ρ) c
  | ⟨2, _⟩ => fun c => dat2 (V2 m ρ) c
abbrev Tₙ (c : Dev nD) : sProp 𝕄 := iprop(StableHlo.held (c : Thread nD τ) (Pipeline.ucRefs τ sig) (W3 m ρ c) ∗ ∃ r, prngReg c r)

set_option backward.isDefEq.respectTransparency.types false in
def reg0 : Pipeline.RegionSeg (pcfgs (F := F)) admH (pdats m ρ) () defs₀ 𝒱₀ L lv 0 :=
  regionOf (pdats m ρ) 0 launch0 (W0 m ρ) (body_obligation0 (V0 m ρ)) (fun _ _ => rfl) (fun _ _ => rfl) (fun _ _ => rfl) (fun _ _ => rfl) (hin0 (V0 m ρ)) (hout0 (V0 m ρ))
set_option backward.isDefEq.respectTransparency.types false in
def reg1 : Pipeline.RegionSeg (pcfgs (F := F)) admH (pdats m ρ) () defs₀ 𝒱₀ L lv 1 :=
  regionOf (pdats m ρ) 1 launch1 (W1 m ρ) (body_obligation1 (V1 m ρ)) (fun _ _ => rfl) (fun _ _ => rfl) (fun _ _ => rfl) (fun _ _ => rfl) (hin1 (V1 m ρ)) (hout1 (V1 m ρ))
set_option backward.isDefEq.respectTransparency.types false in
def reg2 : Pipeline.RegionSeg (pcfgs (F := F)) admH (pdats m ρ) () defs₀ 𝒱₀ L lv 2 :=
  regionOf (pdats m ρ) 2 launch2 (W2 m ρ) (body_obligation2 (V2 m ρ)) (fun _ _ => rfl) (fun _ _ => rfl) (fun _ _ => rfl) (fun _ _ => rfl) (hin2 (V2 m ρ)) (hout2 (V2 m ρ))

abbrev segs : List (Pipeline.Seg (pcfgs (F := F)) admH (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.LibPlainDot.lean ====
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- An [M, K] × [K, N] product into a zero accumulator is Σ_k x[i, k] · w[k, j] over the extended reals. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.LibKeepdims.lean ====
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A sum along the second axis, read at row r, is Σ_k src[r, k]. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KI.R0.Pieces.lean ====
import proofs.«173626_j55740085568003_1_alg».proof.Proof.KI.R0.Body
import proofs.«173626_j55740085568003_1_alg».proof.Proof.LibPlainDot
import proofs.«173626_j55740085568003_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

open Idealize.ShloMosaic.ValueIdx

def tileProd0 (x0 : Vec Ideal S1024x512 .f32) (x1 : Vec Ideal S512x1024 .f32) (r q : Fin 1024) : EReal :=
  ∑ d : Fin 512, x0 (ix2 r d) * x1 (ix2 d q)

private theorem pay2_apply0 (x0 : Vec Ideal S1024x512 .f32) (x1 : Vec Ideal S512x1024 .f32) (r q : Fin 1024) :
    k0_pay2 (F := Ideal) x0 x1 (ix2 r q) = tileProd0 x0 x1 r q := by
  unfold k0_pay2
  exact (PlainDot.matmul_zero_apply 1024 512 1024 (truncf .bf16 x0 bitsLt_bf16_f32) (truncf .bf16 x1 bitsLt_bf16_f32) (ix2 r q)).trans rfl

private theorem shapeCast_b_1b_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

private theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => ?_
  refine congrArg src (funext fun ax => Fin.ext ?_)
  rw [Shape.Reduces.lift_val]
  match ax with
  | ⟨0, _⟩ => rfl
  | ⟨1, _⟩ => rfl

theorem pay3_apply0 (x0 : Vec Ideal S1024x512 .f32) (x1 : Vec Ideal S512x1024 .f32) (r q : Fin 1024) :
    k0_pay3 (F := Ideal) x0 x1 (ix2 r q) = tileProd0 x0 x1 r q := by
  unfold k0_pay3
  exact pay2_apply0 x0 x1 r q
theorem pay1_apply0 (q : Fin 1024) : k0_pay1 (F := Ideal) (ix2 (0 : Fin 1) q) = 0 := by
  unfold k0_pay1
  exact (congrFun (shapeCast_self _ _) _).trans Ideal.ofBits_zero_f32
theorem pay4_apply0 (x0 : Vec Ideal S1024x512 .f32) (x1 : Vec Ideal S512x1024 .f32) (xs : Vec Ideal S1x1024 .f32) (q : Fin 1024) :
    k0_pay4 (F := Ideal) x0 x1 xs (ix2 (0 : Fin 1) q)
      = xs (ix2 (0 : Fin 1) q) + ∑ r : Fin 1024, tileProd0 x0 x1 r q * tileProd0 x0 x1 r q := by
  unfold k0_pay4
  refine (congrFun (shapeCast_self _ _) _).trans ?_
  refine congrArg (fun z => xs (ix2 (0 : Fin 1) q) + z) ?_
  refine (shapeCast_b_1b_apply _ _ (0 : Fin 1) q).trans ?_
  refine (colSum_apply _ _ _ _ _ q).trans ?_
  refine Finset.sum_congr rfl fun r _ => ?_
  exact congrArg₂ (· * ·) (pay2_apply0 x0 x1 r q) (pay2_apply0 x0 x1 r q)

end Cert.KernelIdeal.Hand

end
-- ==== Proof.Spec.lean ====
import Idealize.ShloMosaic.PureOps.Ideal.Laws
import Idealize.ShloMosaic.Lib.ValueIdx

noncomputable section

open scoped BigOperators

namespace Cert.Spec

open Idealize.ShloMosaic Idealize.ShloMosaic.ValueIdx

variable (X : (⟨2, ![4096, 512]⟩ : Shape).Idx → EReal) (M : (⟨2, ![512, 4096]⟩ : Shape).Idx → EReal)
  (C : (⟨2, ![2048, 512]⟩ : Shape).Idx → EReal)

/-- (X·M)[n, m]. -/
def xm (n : Fin 4096) (m : Fin 4096) : EReal := ∑ d : Fin 512, X (ix2 n d) * M (ix2 d m)

/-- (X·Cᵀ)[n, k]. -/
def xc (n : Fin 4096) (k : Fin 2048) : EReal := ∑ d : Fin 512, X (ix2 n d) * C (ix2 k d)

/-- Σ_n (X·M)[n, m]². -/
def summ (m : Fin 4096) : EReal := ∑ n : Fin 4096, xm X M n m * xm X M n m

/-- Σ_n (X·Cᵀ)[n, k]². -/
def sumc (k : Fin 2048) : EReal := ∑ n : Fin 4096, xc X C n k * xc X C n k

/-- Σ_n (X·Cᵀ)[n, k] · (X·M)[n, m]. -/
def cross (k : Fin 2048) (m : Fin 4096) : EReal := ∑ n : Fin 4096, xc X C n k * xm X M n m

def two : EReal := Ideal.ofBits .f32 0x40000000#32

/-- ‖a‖² − 2·a·b + ‖b‖² for a = (X·M)[:, m] and b = (X·Cᵀ)[:, k], clamped at 0, under the square root. -/
def dist (k : Fin 2048) (m : Fin 4096) : EReal :=
  Ideal.sqrt (max ((summ X M m - two * cross X M C k m) + sumc X C k) 0)

def G : (⟨2, ![2048, 4096]⟩ : Shape).Idx → EReal := fun j =>
  dist X M C ⟨(j 0).val, (j 0).isLt⟩ ⟨(j 1).val, (j 1).isLt⟩

end Cert.Spec

end
-- ==== Proof.KI.R0.Value.lean ====
import proofs.«173626_j55740085568003_1_alg».proof.Proof.KI.R0.Pieces
import proofs.«173626_j55740085568003_1_alg».proof.Proof.Spec
import proofs.«173626_j55740085568003_1_alg».proof.Proof.LibPlainDot
import proofs.«173626_j55740085568003_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Data.Fintype.BigOperators

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

open Idealize.ShloMosaic.ValueIdx

section
variable (V : (c : Dev nD) → (b : Ref sig .tc) → Buf (Elt Ideal) ((c : Thread nD τ).loc b))

abbrev xarr0 (c : Dev nD) : S4096x512.Idx → EReal := V c main_arg0
abbrev marr0 (c : Dev nD) : S512x4096.Idx → EReal := V c main_arg1

theorem idx0 : ∀ t : Fin cfg0.N,
    win0_0.index t (0 : Fin 2) = t.val % 4 ∧ win0_0.index t (1 : Fin 2) = 0
    ∧ win0_1.index t (0 : Fin 2) = 0 ∧ win0_1.index t (1 : Fin 2) = t.val / 4
    ∧ win0_2.index t (0 : Fin 2) = t.val % 4 ∧ win0_2.index t (1 : Fin 2) = t.val / 4
    ∧ win0_3.index t (0 : Fin 2) = 0 ∧ win0_3.index t (1 : Fin 2) = t.val / 4 :=
  (by decide +kernel : ∀ t : Fin grid0.N, _)

abbrev xblk0 (c : Dev nD) (t : Fin cfg0.N) : Vec Ideal S1024x512 .f32 := iblk0 V c 0 t
abbrev mblk0 (c : Dev nD) (t : Fin cfg0.N) : Vec Ideal S512x1024 .f32 := iblk0 V c 1 t

theorem xblk0_apply (c : Dev nD) (t : Fin cfg0.N) (r : Fin 1024) (d : Fin 512) (n : Fin 4096)
    (hn : n.val = t.val % 4 * 1024 + r.val) :
    xblk0 V c t (ix2 r d) = xarr0 V c (ix2 n d) := by
  obtain ⟨e0, e1, -⟩ := idx0 t
  unfold xblk0 iblk0
  rw [View.read_apply]
  show V c main_arg0 _ = V c main_arg0 _
  congr 1
  funext a
  apply Fin.ext
  match a with
  | ⟨0, _⟩ => show win0_0.index t (0 : Fin 2) * 1024 + 1 * r.val = n.val; rw [e0, hn]; omega
  | ⟨1, _⟩ => show win0_0.index t (1 : Fin 2) * 512 + 1 * d.val = d.val; rw [e1]; omega

theorem mblk0_apply (c : Dev nD) (t : Fin cfg0.N) (d : Fin 512) (q : Fin 1024) (m : Fin 4096)
    (hm : m.val = t.val / 4 * 1024 + q.val) :
    mblk0 V c t (ix2 d q) = marr0 V c (ix2 d m) := by
  obtain ⟨-, -, e2, e3, -⟩ := idx0 t
  unfold mblk0 iblk0
  rw [View.read_apply]
  show V c main_arg1 _ = V c main_arg1 _
  congr 1
  funext a
  apply Fin.ext
  match a with
  | ⟨0, _⟩ => show win0_1.index t (0 : Fin 2) * 512 + 1 * d.val = d.val; rw [e2]; omega
  | ⟨1, _⟩ => show win0_1.index t (1 : Fin 2) * 1024 + 1 * q.val = m.val; rw [e3, hm]; omega

/-- A tile product entry is the entry of X·M at the tile's place. -/
theorem tileProd0_eq (c : Dev nD) (t : Fin cfg0.N) (r q : Fin 1024) (n m : Fin 4096)
    (hn : n.val = t.val % 4 * 1024 + r.val) (hm : m.val = t.val / 4 * 1024 + q.val) :
    tileProd0 (xblk0 V c t) (mblk0 V c t) r q = Cert.Spec.xm (xarr0 V c) (marr0 V c) n m := by
  unfold tileProd0 Cert.Spec.xm
  refine Finset.sum_congr rfl fun d _ => ?_
  rw [xblk0_apply V c t r d n hn, mblk0_apply V c t d q m hm]

abbrev prodArr0 (c : Dev nD) : S4096x4096.Idx → EReal :=
  fun j => Cert.Spec.xm (xarr0 V c) (marr0 V c) ⟨(j 0).val, (j 0).isLt⟩ ⟨(j 1).val, (j 1).isLt⟩

theorem prodblk0_apply (c : Dev nD) (t : Fin cfg0.N) (y : S1024x1024.Idx) (i : S4096x4096.Idx)
    (h0 : (i 0).val = t.val % 4 * 1024 + (y 0).val) (h1 : (i 1).val = t.val / 4 * 1024 + (y 1).val) :
    k0_pay3 (F := Ideal) (xblk0 V c t) (mblk0 V c t) y = prodArr0 V c i := by
  obtain ⟨r, q, rfl⟩ : ∃ (r q : Fin 1024), y = ix2 r q := ⟨y 0, y 1, eq_ix2 y⟩
  rw [pay3_apply0]
  exact tileProd0_eq V c t r q ⟨(i 0).val, (i 0).isLt⟩ ⟨(i 1).val, (i 1).isLt⟩ h0 h1

theorem flushed0_2_eq (c : Dev nD) (t : Fin cfg0.N) :
    (dat0 (F := Ideal) V c).flushed 2 t = ((cfg0.win 2).blk t).view.read (Elt Ideal) (prodArr0 V c) := by
  show (cfg0.win 2).cut (grid0.coords t) ((dat0 (F := Ideal) V c).after 2 t) = _
  rw [after0_2]
  obtain ⟨-, -, -, -, e4, e5, -⟩ := idx0 t
  funext j
  show k0_pay3 (F := Ideal) (xblk0 V c t) (mblk0 V c t) j = prodArr0 V c (((cfg0.win 2).blk t).view.emb j)
  refine prodblk0_apply V c t j _ ?_ ?_
  · show win0_2.index t (0 : Fin 2) * 1024 + 1 * (j 0).val = _
    rw [e4]; omega
  · show win0_2.index t (1 : Fin 2) * 1024 + 1 * (j 1).val = _
    rw [e5]; omega

theorem mem_blk0_2 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0_0).slice (win0_2.rect t)).set ↔ _
  rw [View.set_slice_whole, Rect.mem_set_unit]
  exact Iff.rfl

theorem cover0_2 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ : ∃ t : Fin cfg0.N, t.val = (i 1).val / 1024 * 4 + (i 0).val / 1024 :=
    ⟨⟨(i 1).val / 1024 * 4 + (i 0).val / 1024, lt_of_lt_of_eq (by omega : _ < 16) N_0.symm⟩, rfl⟩
  obtain ⟨-, -, -, -, e4, e5, -⟩ := idx0 t
  refine ⟨t, flush0_2 t, ?_⟩
  rw [mem_blk0_2]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1024 ≤ (i 1).val ∧ (i 1).val < win0_2.index t (1 : Fin 2) * 1024 + 1024
    rw [e5, ht]; omega

/-- Region 0 leaves X·M -/
theorem arr0_2 (c : Dev nD) :
    (dat0 (F := Ideal) V c).arrAt 2 cfg0.N
      = (fun j : S4096x4096.Idx => Cert.Spec.xm (xarr0 V c) (marr0 V c) ⟨(j 0).val, (j 0).isLt⟩ ⟨(j 1).val, (j 1).isLt⟩) :=
  (dat0 (F := Ideal) V c).arrAt_eq_of_cover 2 (prodArr0 V c) (fun t _ => flushed0_2_eq V c t) cover0_2

def colsq0 (c : Dev nD) (m : Fin 4096) (n' : ℕ) : EReal :=
  if h : n' < 4096 then Cert.Spec.xm (xarr0 V c) (marr0 V c) ⟨n', h⟩ m * Cert.Spec.xm (xarr0 V c) (marr0 V c) ⟨n', h⟩ m else 0

theorem colsq0_sum (c : Dev nD) (m : Fin 4096) :
    ∑ k ∈ Finset.range 4096, colsq0 V c m k = Cert.Spec.summ (xarr0 V c) (marr0 V c) m := by
  unfold Cert.Spec.summ
  rw [← Fin.sum_univ_eq_sum_range (fun k => colsq0 V c m k) 4096]
  refine Finset.sum_congr rfl fun n _ => ?_
  unfold colsq0
  rw [dif_pos n.isLt]

theorem tileSq0_eq (c : Dev nD) (t : Fin cfg0.N) (q : Fin 1024) (m : Fin 4096) (hm : m.val = t.val / 4 * 1024 + q.val) :
    ∑ r : Fin 1024, tileProd0 (xblk0 V c t) (mblk0 V c t) r q * tileProd0 (xblk0 V c t) (mblk0 V c t) r q
      = ∑ k ∈ Finset.range 1024, colsq0 V c m (t.val % 4 * 1024 + k) := by
  rw [← Fin.sum_univ_eq_sum_range (fun k => colsq0 V c m (t.val % 4 * 1024 + k)) 1024]
  refine Finset.sum_congr rfl fun r _ => ?_
  have hr : t.val % 4 * 1024 + r.val < 4096 := by have := r.isLt; omega
  rw [tileProd0_eq V c t r q ⟨t.val % 4 * 1024 + r.val, hr⟩ m rfl hm]
  unfold colsq0
  rw [dif_pos hr]

theorem acc0_update (c : Dev nD) (t : Fin cfg0.N) (xs : Vec Ideal S1x1024 .f32) (q : Fin 1024) (m : Fin 4096)
    (hm : m.val = t.val / 4 * 1024 + q.val)
    (hxs : xs (ix2 (0 : Fin 1) q) = ∑ k ∈ Finset.range (t.val % 4 * 1024), colsq0 V c m k) :
    k0_pay4 (F := Ideal) (xblk0 V c t) (mblk0 V c t) xs (ix2 (0 : Fin 1) q)
      = ∑ k ∈ Finset.range ((t.val % 4 + 1) * 1024), colsq0 V c m k := by
  rw [pay4_apply0, tileSq0_eq V c t q m hm, hxs,
    show (t.val % 4 + 1) * 1024 = t.val % 4 * 1024 + 1024 from by omega, Finset.sum_range_add]

theorem acc0_step (c : Dev nD) (t : Fin cfg0.N)
    (ih : ¬t.val % 4 = 0 → ∀ (q : Fin 1024) (m : Fin 4096), m.val = (t.val - 1) / 4 * 1024 + q.val →
      accAt0 (F := Ideal) V c (t.val - 1) (Nat.lt_of_le_of_lt (Nat.sub_le _ _) t.isLt) (ix2 (0 : Fin 1) q)
        = ∑ k ∈ Finset.range (((t.val - 1) % 4 + 1) * 1024), colsq0 V c m k)
    (q : Fin 1024) (m : Fin 4096) (hm : m.val = t.val / 4 * 1024 + q.val) :
    accAt0 (F := Ideal) V c t.val t.isLt (ix2 (0 : Fin 1) q)
      = ∑ k ∈ Finset.range ((t.val % 4 + 1) * 1024), colsq0 V c m k := by
  by_cases h0 : t.val % 4 = 0
  · rw [accAt0_reset V c t h0]
    refine acc0_update V c t (k0_pay1 (F := Ideal)) q m hm ?_
    rw [pay1_apply0, h0, Nat.zero_mul, Finset.range_zero, Finset.sum_empty]
  · have hprev := ih h0 q m (by omega)
    rw [show ((t.val - 1) % 4 + 1) * 1024 = t.val % 4 * 1024 from by omega] at hprev
    rw [accAt0_step V c t h0]
    exact acc0_update V c t _ q m hm hprev

/-- After point n, lane q holds the squares of column (n / 4)·1024 + q of X·M summed over the first (n % 4 + 1)·1024 rows. -/
theorem acc0_inv (c : Dev nD) : ∀ (n : ℕ) (hn : n < cfg0.N) (q : Fin 1024) (m : Fin 4096), m.val = n / 4 * 1024 + q.val →
    accAt0 (F := Ideal) V c n hn (ix2 (0 : Fin 1) q) = ∑ k ∈ Finset.range ((n % 4 + 1) * 1024), colsq0 V c m k
  | 0, hn => acc0_step V c ⟨0, hn⟩ (fun h => absurd (Nat.zero_mod 4) h)
  | n + 1, hn => acc0_step V c ⟨n + 1, hn⟩ (fun _ => acc0_inv c n (Nat.lt_of_succ_lt hn))

abbrev normArr0 (c : Dev nD) : S1x4096.Idx → EReal :=
  fun j => Cert.Spec.summ (xarr0 V c) (marr0 V c) ⟨(j 1).val, (j 1).isLt⟩

theorem normblk0_apply (c : Dev nD) (t : Fin cfg0.N) (h1 : t.val % 4 = 3) (y : S1x1024.Idx) (i : S1x4096.Idx)
    (hi : (i 1).val = t.val / 4 * 1024 + (y 1).val) :
    accAt0 (F := Ideal) V c t.val t.isLt y = normArr0 V c i := by
  obtain ⟨z, q, rfl⟩ : ∃ (z : Fin 1) (q : Fin 1024), y = ix2 z q := ⟨y 0, y 1, eq_ix2 y⟩
  obtain rfl : z = 0 := Subsingleton.elim _ _
  rw [acc0_inv V c t.val t.isLt q ⟨(i 1).val, (i 1).isLt⟩ hi, h1]
  exact colsq0_sum V c ⟨(i 1).val, (i 1).isLt⟩

theorem flushed0_3_eq (c : Dev nD) (t : Fin cfg0.N) (hf : (cfg0.win 3).flush t = true) :
    (dat0 (F := Ideal) V c).flushed 3 t = ((cfg0.win 3).blk t).view.read (Elt Ideal) (normArr0 V c) := by
  have h1 : t.val % 4 = 3 := (flush0_3 t).mp hf
  show (cfg0.win 3).cut (grid0.coords t) ((dat0 (F := Ideal) V c).after 3 t) = _
  rw [after0_3]
  obtain ⟨-, -, -, -, -, -, -, e7⟩ := idx0 t
  funext j
  show accAt0 (F := Ideal) V c t.val t.isLt j = normArr0 V c (((cfg0.win 3).blk t).view.emb j)
  refine normblk0_apply V c t h1 j _ ?_
  show win0_3.index t (1 : Fin 2) * 1024 + 1 * (j 1).val = _
  rw [e7]; omega

theorem mem_blk0_3 (t : Fin cfg0.N) (i : S1x4096.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v0_1).slice (win0_3.rect t)).set ↔ _
  rw [View.set_slice_whole, Rect.mem_set_unit]
  exact Iff.rfl

theorem cover0_3 (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  obtain ⟨t, ht⟩ : ∃ t : Fin cfg0.N, t.val = (i 1).val / 1024 * 4 + 3 :=
    ⟨⟨(i 1).val / 1024 * 4 + 3, lt_of_lt_of_eq (by omega : _ < 16) N_0.symm⟩, rfl⟩
  obtain ⟨-, -, -, -, -, -, e6, e7⟩ := idx0 t
  refine ⟨t, (flush0_3 t).mpr (by omega), ?_⟩
  rw [mem_blk0_3]
  intro a
  match a with
  | ⟨0, _⟩ =>
    show win0_3.index t (0 : Fin 2) * 1 ≤ (i 0).val ∧ (i 0).val < win0_3.index t (0 : Fin 2) * 1 + 1
    rw [e6]; omega
  | ⟨1, _⟩ =>
    show win0_3.index t (1 : Fin 2) * 1024 ≤ (i 1).val ∧ (i 1).val < win0_3.index t (1 : Fin 2) * 1024 + 1024
    rw [e7, ht]; omega

/-- and its squared column norms. -/
theorem arr0_3 (c : Dev nD) :
    (dat0 (F := Ideal) V c).arrAt 3 cfg0.N
      = (fun j : S1x4096.Idx => Cert.Spec.summ (xarr0 V c) (marr0 V c) ⟨(j 1).val, (j 1).isLt⟩) :=
  (dat0 (F := Ideal) V c).arrAt_eq_of_cover 3 (normArr0 V c) (flushed0_3_eq V c) cover0_3
end

end Cert.KernelIdeal.Hand

end
-- ==== Proof.LibDotTransposedRhs.lean ====
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- With the right operand laid out [N, K] the product is Σ_k x[i, k] · w[j, k]. -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.KI.R1.Pieces.lean ====
import proofs.«173626_j55740085568003_1_alg».proof.Proof.KI.R1.Body
import proofs.«173626_j55740085568003_1_alg».proof.Proof.LibDotTransposedRhs
import proofs.«173626_j55740085568003_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

open Idealize.ShloMosaic.ValueIdx

def tileProd1 (x0 : Vec Ideal S1024x512 .f32) (x1 : Vec Ideal S1024x512 .f32) (r q : Fin 1024) : EReal :=
  ∑ d : Fin 512, x0 (ix2 r d) * x1 (ix2 q d)

private theorem pay2_apply1 (x0 : Vec Ideal S1024x512 .f32) (x1 : Vec Ideal S1024x512 .f32) (r q : Fin 1024) :
    k1_pay2 (F := Ideal) x0 x1 (ix2 r q) = tileProd1 x0 x1 r q := by
  unfold k1_pay2
  exact (TransposedRhsDot.matmul_zero_apply 1024 512 1024 (truncf .bf16 x0 bitsLt_bf16_f32) (truncf .bf16 x1 bitsLt_bf16_f32) r q).trans rfl

theorem pay3_apply1 (x0 : Vec Ideal S1024x512 .f32) (x1 : Vec Ideal S1024x512 .f32) (r q : Fin 1024) :
    k1_pay3 (F := Ideal) x0 x1 (ix2 r q) = tileProd1 x0 x1 r q := by
  unfold k1_pay3
  exact pay2_apply1 x0 x1 r q
theorem pay1_apply1 (r : Fin 1024) : k1_pay1 (F := Ideal) (ix2 r (0 : Fin 1)) = 0 := by
  unfold k1_pay1
  exact (congrFun (shapeCast_self _ _) _).trans Ideal.ofBits_zero_f32
theorem pay4_apply1 (x0 : Vec Ideal S1024x512 .f32) (x1 : Vec Ideal S1024x512 .f32) (xs : Vec Ideal S1024x1 .f32) (r : Fin 1024) :
    k1_pay4 (F := Ideal) x0 x1 xs (ix2 r (0 : Fin 1))
      = xs (ix2 r (0 : Fin 1)) + ∑ q : Fin 1024, tileProd1 x0 x1 r q * tileProd1 x0 x1 r q := by
  unfold k1_pay4
  refine (congrFun (shapeCast_self _ _) _).trans ?_
  refine congrArg (fun z => xs (ix2 r (0 : Fin 1)) + z) ?_
  refine (Keepdims.shapeCast_a_a1_apply _ _ r (0 : Fin 1)).trans ?_
  refine (Keepdims.laneSum_apply _ _ _ _ _ r).trans ?_
  refine Finset.sum_congr rfl fun q _ => ?_
  exact congrArg₂ (· * ·) (pay2_apply1 x0 x1 r q) (pay2_apply1 x0 x1 r q)

end Cert.KernelIdeal.Hand

end
-- ==== Proof.KI.R1.Value.lean ====
import proofs.«173626_j55740085568003_1_alg».proof.Proof.KI.R1.Pieces
import proofs.«173626_j55740085568003_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Data.Fintype.BigOperators

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

open Idealize.ShloMosaic.ValueIdx

section
variable (V : (c : Dev nD) → (b : Ref sig .tc) → Buf (Elt Ideal) ((c : Thread nD τ).loc b))

abbrev xarr1 (c : Dev nD) : S4096x512.Idx → EReal := V c main_arg0
abbrev carr1 (c : Dev nD) : S2048x512.Idx → EReal := V c main_arg2

theorem idx1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4
    ∧ win1_3.index t (0 : Fin 2) = t.val / 4 ∧ win1_3.index t (1 : Fin 2) = 0 :=
  (by decide +kernel : ∀ t : Fin grid1.N, _)

abbrev cblk1 (c : Dev nD) (t : Fin cfg1.N) : Vec Ideal S1024x512 .f32 := iblk1 V c 0 t
abbrev xblk1 (c : Dev nD) (t : Fin cfg1.N) : Vec Ideal S1024x512 .f32 := iblk1 V c 1 t

theorem cblk1_apply (c : Dev nD) (t : Fin cfg1.N) (r : Fin 1024) (d : Fin 512) (k : Fin 2048)
    (hk : k.val = t.val / 4 * 1024 + r.val) :
    cblk1 V c t (ix2 r d) = carr1 V c (ix2 k d) := by
  obtain ⟨e0, e1, -⟩ := idx1 t
  unfold cblk1 iblk1
  rw [View.read_apply]
  show V c main_arg2 _ = V c main_arg2 _
  congr 1
  funext a
  apply Fin.ext
  match a with
  | ⟨0, _⟩ => show win1_0.index t (0 : Fin 2) * 1024 + 1 * r.val = k.val; rw [e0, hk]; omega
  | ⟨1, _⟩ => show win1_0.index t (1 : Fin 2) * 512 + 1 * d.val = d.val; rw [e1]; omega

theorem xblk1_apply (c : Dev nD) (t : Fin cfg1.N) (q : Fin 1024) (d : Fin 512) (n : Fin 4096)
    (hn : n.val = t.val % 4 * 1024 + q.val) :
    xblk1 V c t (ix2 q d) = xarr1 V c (ix2 n d) := by
  obtain ⟨-, -, e2, e3, -⟩ := idx1 t
  unfold xblk1 iblk1
  rw [View.read_apply]
  show V c main_arg0 _ = V c main_arg0 _
  congr 1
  funext a
  apply Fin.ext
  match a with
  | ⟨0, _⟩ => show win1_1.index t (0 : Fin 2) * 1024 + 1 * q.val = n.val; rw [e2, hn]; omega
  | ⟨1, _⟩ => show win1_1.index t (1 : Fin 2) * 512 + 1 * d.val = d.val; rw [e3]; omega

/-- A tile product entry is the entry of C·Xᵀ at the tile's place. -/
theorem tileProd1_eq (c : Dev nD) (t : Fin cfg1.N) (r q : Fin 1024) (k : Fin 2048) (n : Fin 4096)
    (hk : k.val = t.val / 4 * 1024 + r.val) (hn : n.val = t.val % 4 * 1024 + q.val) :
    tileProd1 (cblk1 V c t) (xblk1 V c t) r q = Cert.Spec.xc (xarr1 V c) (carr1 V c) n k := by
  unfold tileProd1 Cert.Spec.xc
  refine Finset.sum_congr rfl fun d _ => ?_
  rw [cblk1_apply V c t r d k hk, xblk1_apply V c t q d n hn]
  exact mul_comm _ _

abbrev prodArr1 (c : Dev nD) : S2048x4096.Idx → EReal :=
  fun j => Cert.Spec.xc (xarr1 V c) (carr1 V c) ⟨(j 1).val, (j 1).isLt⟩ ⟨(j 0).val, (j 0).isLt⟩

theorem prodblk1_apply (c : Dev nD) (t : Fin cfg1.N) (y : S1024x1024.Idx) (i : S2048x4096.Idx)
    (h0 : (i 0).val = t.val / 4 * 1024 + (y 0).val) (h1 : (i 1).val = t.val % 4 * 1024 + (y 1).val) :
    k1_pay3 (F := Ideal) (cblk1 V c t) (xblk1 V c t) y = prodArr1 V c i := by
  obtain ⟨r, q, rfl⟩ : ∃ (r q : Fin 1024), y = ix2 r q := ⟨y 0, y 1, eq_ix2 y⟩
  rw [pay3_apply1]
  exact tileProd1_eq V c t r q ⟨(i 0).val, (i 0).isLt⟩ ⟨(i 1).val, (i 1).isLt⟩ h0 h1

theorem flushed1_2_eq (c : Dev nD) (t : Fin cfg1.N) :
    (dat1 (F := Ideal) V c).flushed 2 t = ((cfg1.win 2).blk t).view.read (Elt Ideal) (prodArr1 V c) := by
  show (cfg1.win 2).cut (grid1.coords t) ((dat1 (F := Ideal) V c).after 2 t) = _
  rw [after1_2]
  obtain ⟨-, -, -, -, e4, e5, -⟩ := idx1 t
  funext j
  show k1_pay3 (F := Ideal) (cblk1 V c t) (xblk1 V c t) j = prodArr1 V c (((cfg1.win 2).blk t).view.emb j)
  refine prodblk1_apply V c t j _ ?_ ?_
  · show win1_2.index t (0 : Fin 2) * 1024 + 1 * (j 0).val = _
    rw [e4]; omega
  · show win1_2.index t (1 : Fin 2) * 1024 + 1 * (j 1).val = _
    rw [e5]; omega

theorem mem_blk1_2 (t : Fin cfg1.N) (i : S2048x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1_0).slice (win1_2.rect t)).set ↔ _
  rw [View.set_slice_whole, Rect.mem_set_unit]
  exact Iff.rfl

theorem cover1_2 (i : S2048x4096.Idx) :
    ∃ t : Fin cfg1.N, (cfg1.win 2).flush t = true ∧ i ∈ ((cfg1.win 2).blk t).view.set := by
  have hi0 : (i 0).val < 2048 := (i 0).isLt
  have hi1 : (i 1).val < 4096 := (i 1).isLt
  obtain ⟨t, ht⟩ : ∃ t : Fin cfg1.N, t.val = (i 0).val / 1024 * 4 + (i 1).val / 1024 :=
    ⟨⟨(i 0).val / 1024 * 4 + (i 1).val / 1024, lt_of_lt_of_eq (by omega : _ < 8) N_1.symm⟩, rfl⟩
  obtain ⟨-, -, -, -, e4, e5, -⟩ := idx1 t
  refine ⟨t, flush1_2 t, ?_⟩
  rw [mem_blk1_2]
  intro a
  match a with
  | ⟨0, _⟩ =>
    show win1_2.index t (0 : Fin 2) * 1024 ≤ (i 0).val ∧ (i 0).val < win1_2.index t (0 : Fin 2) * 1024 + 1024
    rw [e4, ht]; omega
  | ⟨1, _⟩ =>
    show win1_2.index t (1 : Fin 2) * 1024 ≤ (i 1).val ∧ (i 1).val < win1_2.index t (1 : Fin 2) * 1024 + 1024
    rw [e5, ht]; omega

/-- Region 1 leaves C·Xᵀ -/
theorem arr1_2 (c : Dev nD) :
    (dat1 (F := Ideal) V c).arrAt 2 cfg1.N
      = (fun j : S2048x4096.Idx => Cert.Spec.xc (xarr1 V c) (carr1 V c) ⟨(j 1).val, (j 1).isLt⟩ ⟨(j 0).val, (j 0).isLt⟩) :=
  (dat1 (F := Ideal) V c).arrAt_eq_of_cover 2 (prodArr1 V c) (fun t _ => flushed1_2_eq V c t) cover1_2

def rowsq1 (c : Dev nD) (k : Fin 2048) (n' : ℕ) : EReal :=
  if h : n' < 4096 then Cert.Spec.xc (xarr1 V c) (carr1 V c) ⟨n', h⟩ k * Cert.Spec.xc (xarr1 V c) (carr1 V c) ⟨n', h⟩ k else 0

theorem rowsq1_sum (c : Dev nD) (k : Fin 2048) :
    ∑ j ∈ Finset.range 4096, rowsq1 V c k j = Cert.Spec.sumc (xarr1 V c) (carr1 V c) k := by
  unfold Cert.Spec.sumc
  rw [← Fin.sum_univ_eq_sum_range (fun j => rowsq1 V c k j) 4096]
  refine Finset.sum_congr rfl fun n _ => ?_
  unfold rowsq1
  rw [dif_pos n.isLt]

theorem tileSq1_eq (c : Dev nD) (t : Fin cfg1.N) (r : Fin 1024) (k : Fin 2048) (hk : k.val = t.val / 4 * 1024 + r.val) :
    ∑ q : Fin 1024, tileProd1 (cblk1 V c t) (xblk1 V c t) r q * tileProd1 (cblk1 V c t) (xblk1 V c t) r q
      = ∑ j ∈ Finset.range 1024, rowsq1 V c k (t.val % 4 * 1024 + j) := by
  rw [← Fin.sum_univ_eq_sum_range (fun j => rowsq1 V c k (t.val % 4 * 1024 + j)) 1024]
  refine Finset.sum_congr rfl fun q _ => ?_
  have hq : t.val % 4 * 1024 + q.val < 4096 := by have := q.isLt; omega
  rw [tileProd1_eq V c t r q k ⟨t.val % 4 * 1024 + q.val, hq⟩ hk rfl]
  unfold rowsq1
  rw [dif_pos hq]

theorem acc1_update (c : Dev nD) (t : Fin cfg1.N) (xs : Vec Ideal S1024x1 .f32) (r : Fin 1024) (k : Fin 2048)
    (hk : k.val = t.val / 4 * 1024 + r.val)
    (hxs : xs (ix2 r (0 : Fin 1)) = ∑ j ∈ Finset.range (t.val % 4 * 1024), rowsq1 V c k j) :
    k1_pay4 (F := Ideal) (cblk1 V c t) (xblk1 V c t) xs (ix2 r (0 : Fin 1))
      = ∑ j ∈ Finset.range ((t.val % 4 + 1) * 1024), rowsq1 V c k j := by
  rw [pay4_apply1, tileSq1_eq V c t r k hk, hxs,
    show (t.val % 4 + 1) * 1024 = t.val % 4 * 1024 + 1024 from by omega, Finset.sum_range_add]

theorem acc1_step (c : Dev nD) (t : Fin cfg1.N)
    (ih : ¬t.val % 4 = 0 → ∀ (r : Fin 1024) (k : Fin 2048), k.val = (t.val - 1) / 4 * 1024 + r.val →
      accAt1 (F := Ideal) V c (t.val - 1) (Nat.lt_of_le_of_lt (Nat.sub_le _ _) t.isLt) (ix2 r (0 : Fin 1))
        = ∑ j ∈ Finset.range (((t.val - 1) % 4 + 1) * 1024), rowsq1 V c k j)
    (r : Fin 1024) (k : Fin 2048) (hk : k.val = t.val / 4 * 1024 + r.val) :
    accAt1 (F := Ideal) V c t.val t.isLt (ix2 r (0 : Fin 1))
      = ∑ j ∈ Finset.range ((t.val % 4 + 1) * 1024), rowsq1 V c k j := by
  by_cases h0 : t.val % 4 = 0
  · rw [accAt1_reset V c t h0]
    refine acc1_update V c t (k1_pay1 (F := Ideal)) r k hk ?_
    rw [pay1_apply1, h0, Nat.zero_mul, Finset.range_zero, Finset.sum_empty]
  · have hprev := ih h0 r k (by omega)
    rw [show ((t.val - 1) % 4 + 1) * 1024 = t.val % 4 * 1024 from by omega] at hprev
    rw [accAt1_step V c t h0]
    exact acc1_update V c t _ r k hk hprev

/-- After point n, lane r holds the squares of row (n / 4)·1024 + r of C·Xᵀ summed over the first (n % 4 + 1)·1024 columns. -/
theorem acc1_inv (c : Dev nD) : ∀ (n : ℕ) (hn : n < cfg1.N) (r : Fin 1024) (k : Fin 2048), k.val = n / 4 * 1024 + r.val →
    accAt1 (F := Ideal) V c n hn (ix2 r (0 : Fin 1)) = ∑ j ∈ Finset.range ((n % 4 + 1) * 1024), rowsq1 V c k j
  | 0, hn => acc1_step V c ⟨0, hn⟩ (fun h => absurd (Nat.zero_mod 4) h)
  | n + 1, hn => acc1_step V c ⟨n + 1, hn⟩ (fun _ => acc1_inv c n (Nat.lt_of_succ_lt hn))

abbrev normArr1 (c : Dev nD) : S2048x1.Idx → EReal :=
  fun j => Cert.Spec.sumc (xarr1 V c) (carr1 V c) ⟨(j 0).val, (j 0).isLt⟩

theorem normblk1_apply (c : Dev nD) (t : Fin cfg1.N) (h1 : t.val % 4 = 3) (y : S1024x1.Idx) (i : S2048x1.Idx)
    (hi : (i 0).val = t.val / 4 * 1024 + (y 0).val) :
    accAt1 (F := Ideal) V c t.val t.isLt y = normArr1 V c i := by
  obtain ⟨r, z, rfl⟩ : ∃ (r : Fin 1024) (z : Fin 1), y = ix2 r z := ⟨y 0, y 1, eq_ix2 y⟩
  obtain rfl : z = 0 := Subsingleton.elim _ _
  rw [acc1_inv V c t.val t.isLt r ⟨(i 0).val, (i 0).isLt⟩ hi, h1]
  exact rowsq1_sum V c ⟨(i 0).val, (i 0).isLt⟩

theorem flushed1_3_eq (c : Dev nD) (t : Fin cfg1.N) (hf : (cfg1.win 3).flush t = true) :
    (dat1 (F := Ideal) V c).flushed 3 t = ((cfg1.win 3).blk t).view.read (Elt Ideal) (normArr1 V c) := by
  have h1 : t.val % 4 = 3 := (flush1_3 t).mp hf
  show (cfg1.win 3).cut (grid1.coords t) ((dat1 (F := Ideal) V c).after 3 t) = _
  rw [after1_3]
  obtain ⟨-, -, -, -, -, -, e6, -⟩ := idx1 t
  funext j
  show accAt1 (F := Ideal) V c t.val t.isLt j = normArr1 V c (((cfg1.win 3).blk t).view.emb j)
  refine normblk1_apply V c t h1 j _ ?_
  show win1_3.index t (0 : Fin 2) * 1024 + 1 * (j 0).val = _
  rw [e6]; omega

theorem mem_blk1_3 (t : Fin cfg1.N) (i : S2048x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v1_1).slice (win1_3.rect t)).set ↔ _
  rw [View.set_slice_whole, Rect.mem_set_unit]
  exact Iff.rfl

theorem cover1_3 (i : S2048x1.Idx) :
    ∃ t : Fin cfg1.N, (cfg1.win 3).flush t = true ∧ i ∈ ((cfg1.win 3).blk t).view.set := by
  have hi0 : (i 0).val < 2048 := (i 0).isLt
  have hi1 : (i 1).val < 1 := (i 1).isLt
  obtain ⟨t, ht⟩ : ∃ t : Fin cfg1.N, t.val = (i 0).val / 1024 * 4 + 3 :=
    ⟨⟨(i 0).val / 1024 * 4 + 3, lt_of_lt_of_eq (by omega : _ < 8) N_1.symm⟩, rfl⟩
  obtain ⟨-, -, -, -, -, -, e6, e7⟩ := idx1 t
  refine ⟨t, (flush1_3 t).mpr (by omega), ?_⟩
  rw [mem_blk1_3]
  intro a
  match a with
  | ⟨0, _⟩ =>
    show win1_3.index t (0 : Fin 2) * 1024 ≤ (i 0).val ∧ (i 0).val < win1_3.index t (0 : Fin 2) * 1024 + 1024
    rw [e6, ht]; omega
  | ⟨1, _⟩ =>
    show win1_3.index t (1 : Fin 2) * 1 ≤ (i 1).val ∧ (i 1).val < win1_3.index t (1 : Fin 2) * 1 + 1
    rw [e7]; omega

/-- and its squared row norms. -/
theorem arr1_3 (c : Dev nD) :
    (dat1 (F := Ideal) V c).arrAt 3 cfg1.N
      = (fun j : S2048x1.Idx => Cert.Spec.sumc (xarr1 V c) (carr1 V c) ⟨(j 0).val, (j 0).isLt⟩) :=
  (dat1 (F := Ideal) V c).arrAt_eq_of_cover 3 (normArr1 V c) (flushed1_3_eq V c) cover1_3
end

end Cert.KernelIdeal.Hand

end
-- ==== Proof.KI.R2.Pieces.lean ====
import proofs.«173626_j55740085568003_1_alg».proof.Proof.KI.R2.Body
import proofs.«173626_j55740085568003_1_alg».proof.Proof.Spec
import proofs.«173626_j55740085568003_1_alg».proof.Proof.LibPlainDot
import proofs.«173626_j55740085568003_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

open Idealize.ShloMosaic.ValueIdx

theorem pay1_apply2 (r : Fin 512) (q : Fin 1024) : k2_pay1 (F := Ideal) (ix2 r q) = 0 := by
  unfold k2_pay1
  exact (congrFun (shapeCast_self _ _) _).trans Ideal.ofBits_zero_f32

theorem pay2_apply2 (xs : Vec Ideal S512x1024 .f32) (x0 : Vec Ideal S512x1024 .bf16) (x1 : Vec Ideal S1024x1024 .bf16) (r : Fin 512) (q : Fin 1024) :
    k2_pay2 (F := Ideal) xs x0 x1 (ix2 r q) = xs (ix2 r q) + ∑ n : Fin 1024, x0 (ix2 r n) * x1 (ix2 n q) := by
  unfold k2_pay2
  refine (congrFun (shapeCast_self _ _) _).trans ?_
  refine congrArg (fun z => xs (ix2 r q) + z) ?_
  refine (PlainDot.matmul_zero_apply 512 1024 1024 _ _ (ix2 r q)).trans ?_
  refine Finset.sum_congr rfl fun n _ => ?_
  exact congrArg₂ (· * ·) (congrFun (shapeCast_self x0 _) _) (congrFun (shapeCast_self x1 _) _)

theorem pay3_apply2 (x2 : Vec Ideal S1x1024 .f32) (acc : Vec Ideal S512x1024 .f32) (x3 : Vec Ideal S512x1 .f32) (r : Fin 512) (q : Fin 1024) :
    k2_pay3 (F := Ideal) x2 acc x3 (ix2 r q)
      = Ideal.sqrt (max ((x2 (ix2 (0 : Fin 1) q) - Cert.Spec.two * acc (ix2 r q)) + x3 (ix2 r (0 : Fin 1))) 0) := by
  unfold k2_pay3
  have e1 : broadcastTo S512x1024 (shapeCast S1x1024 x2 shapeCasts_S1x1024_S1x1024) broadcasts_S1x1024_S512x1024 (ix2 r q)
      = x2 (ix2 (0 : Fin 1) q) :=
    (broadcastTo_1b_ab_apply _ _ r q).trans (congrFun (shapeCast_self x2 _) _)
  have e2 : broadcastTo S512x1024 (shapeCast S512x1 x3 shapeCasts_S512x1_S512x1) broadcasts_S512x1_S512x1024 (ix2 r q)
      = x3 (ix2 r (0 : Fin 1)) :=
    (Keepdims.broadcastTo_a1_ab_apply _ _ r q).trans (congrFun (shapeCast_self x3 _) _)
  exact congrArg Ideal.sqrt (congrArg₂ max
    (congrArg₂ (· + ·) (congrArg (fun z => z - Cert.Spec.two * acc (ix2 r q)) e1) e2) Ideal.ofBits_zero_f32)

end Cert.KernelIdeal.Hand

end
-- ==== Proof.KI.R2.Value.lean ====
import proofs.«173626_j55740085568003_1_alg».proof.Proof.KI.R2.Pieces
import proofs.«173626_j55740085568003_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Algebra.BigOperators.Fin
import Mathlib.Data.Fintype.BigOperators

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

open Idealize.ShloMosaic.ValueIdx

def distOf (xct : S2048x4096.Idx → EReal) (xm : S4096x4096.Idx → EReal) (summ : S1x4096.Idx → EReal) (sumc : S2048x1.Idx → EReal)
    (k : Fin 2048) (m : Fin 4096) : EReal :=
  Ideal.sqrt (max ((summ (ix2 (0 : Fin 1) m) - Cert.Spec.two * ∑ n : Fin 4096, xct (ix2 k n) * xm (ix2 n m)) + sumc (ix2 k (0 : Fin 1))) 0)

section
variable (V : (c : Dev nD) → (b : Ref sig .tc) → Buf (Elt Ideal) ((c : Thread nD τ).loc b))

abbrev xctarr2 (c : Dev nD) : S2048x4096.Idx → EReal := V c main_v1_0
abbrev xmarr2 (c : Dev nD) : S4096x4096.Idx → EReal := V c main_v0_0
abbrev summarr2 (c : Dev nD) : S1x4096.Idx → EReal := V c main_v0_1
abbrev sumcarr2 (c : Dev nD) : S2048x1.Idx → EReal := V c main_v1_1

theorem idx2 : ∀ t : Fin cfg2.N,
    win2_0.index t (0 : Fin 2) = t.val / 16 ∧ win2_0.index t (1 : Fin 2) = t.val % 4
    ∧ win2_1.index t (0 : Fin 2) = t.val % 4 ∧ win2_1.index t (1 : Fin 2) = t.val / 4 % 4
    ∧ win2_2.index t (0 : Fin 2) = 0 ∧ win2_2.index t (1 : Fin 2) = t.val / 4 % 4
    ∧ win2_3.index t (0 : Fin 2) = t.val / 16 ∧ win2_3.index t (1 : Fin 2) = 0
    ∧ win2_4.index t (0 : Fin 2) = t.val / 16 ∧ win2_4.index t (1 : Fin 2) = t.val / 4 % 4 :=
  (by decide +kernel : ∀ t : Fin grid2.N, _)

abbrev xctblk2 (c : Dev nD) (t : Fin cfg2.N) : Vec Ideal S512x1024 .bf16 := iblk2 V c 0 t
abbrev xmblk2 (c : Dev nD) (t : Fin cfg2.N) : Vec Ideal S1024x1024 .bf16 := iblk2 V c 1 t
abbrev summblk2 (c : Dev nD) (t : Fin cfg2.N) : Vec Ideal S1x1024 .f32 := iblk2 V c 2 t
abbrev sumcblk2 (c : Dev nD) (t : Fin cfg2.N) : Vec Ideal S512x1 .f32 := iblk2 V c 3 t

theorem xctblk2_apply (c : Dev nD) (t : Fin cfg2.N) (r : Fin 512) (n : Fin 1024) (k : Fin 2048) (n' : Fin 4096)
    (hk : k.val = t.val / 16 * 512 + r.val) (hn : n'.val = t.val % 4 * 1024 + n.val) :
    xctblk2 V c t (ix2 r n) = xctarr2 V c (ix2 k n') := by
  obtain ⟨e0, e1, -⟩ := idx2 t
  unfold xctblk2 iblk2
  rw [View.read_apply]
  show V c main_v1_0 _ = V c main_v1_0 _
  congr 1
  funext a
  apply Fin.ext
  match a with
  | ⟨0, _⟩ => show win2_0.index t (0 : Fin 2) * 512 + 1 * r.val = k.val; rw [e0, hk]; omega
  | ⟨1, _⟩ => show win2_0.index t (1 : Fin 2) * 1024 + 1 * n.val = n'.val; rw [e1, hn]; omega

theorem xmblk2_apply (c : Dev nD) (t : Fin cfg2.N) (n : Fin 1024) (q : Fin 1024) (n' : Fin 4096) (m : Fin 4096)
    (hn : n'.val = t.val % 4 * 1024 + n.val) (hm : m.val = t.val / 4 % 4 * 1024 + q.val) :
    xmblk2 V c t (ix2 n q) = xmarr2 V c (ix2 n' m) := by
  obtain ⟨-, -, e2, e3, -⟩ := idx2 t
  unfold xmblk2 iblk2
  rw [View.read_apply]
  show V c main_v0_0 _ = V c main_v0_0 _
  congr 1
  funext a
  apply Fin.ext
  match a with
  | ⟨0, _⟩ => show win2_1.index t (0 : Fin 2) * 1024 + 1 * n.val = n'.val; rw [e2, hn]; omega
  | ⟨1, _⟩ => show win2_1.index t (1 : Fin 2) * 1024 + 1 * q.val = m.val; rw [e3, hm]; omega

theorem summblk2_apply (c : Dev nD) (t : Fin cfg2.N) (z : Fin 1) (q : Fin 1024) (m : Fin 4096)
    (hm : m.val = t.val / 4 % 4 * 1024 + q.val) :
    summblk2 V c t (ix2 z q) = summarr2 V c (ix2 z m) := by
  obtain ⟨-, -, -, -, e4, e5, -⟩ := idx2 t
  unfold summblk2 iblk2
  rw [View.read_apply]
  show V c main_v0_1 _ = V c main_v0_1 _
  congr 1
  funext a
  apply Fin.ext
  match a with
  | ⟨0, _⟩ => show win2_2.index t (0 : Fin 2) * 1 + 1 * z.val = z.val; rw [e4]; omega
  | ⟨1, _⟩ => show win2_2.index t (1 : Fin 2) * 1024 + 1 * q.val = m.val; rw [e5, hm]; omega

theorem sumcblk2_apply (c : Dev nD) (t : Fin cfg2.N) (r : Fin 512) (z : Fin 1) (k : Fin 2048)
    (hk : k.val = t.val / 16 * 512 + r.val) :
    sumcblk2 V c t (ix2 r z) = sumcarr2 V c (ix2 k z) := by
  obtain ⟨-, -, -, -, -, -, e6, e7, -⟩ := idx2 t
  unfold sumcblk2 iblk2
  rw [View.read_apply]
  show V c main_v1_1 _ = V c main_v1_1 _
  congr 1
  funext a
  apply Fin.ext
  match a with
  | ⟨0, _⟩ => show win2_3.index t (0 : Fin 2) * 512 + 1 * r.val = k.val; rw [e6, hk]; omega
  | ⟨1, _⟩ => show win2_3.index t (1 : Fin 2) * 1 + 1 * z.val = z.val; rw [e7]; omega

def dotTerm2 (c : Dev nD) (k : Fin 2048) (m : Fin 4096) (n' : ℕ) : EReal :=
  if h : n' < 4096 then xctarr2 V c (ix2 k (⟨n', h⟩ : Fin 4096)) * xmarr2 V c (ix2 (⟨n', h⟩ : Fin 4096) m) else 0

theorem dotTerm2_sum (c : Dev nD) (k : Fin 2048) (m : Fin 4096) :
    ∑ j ∈ Finset.range 4096, dotTerm2 V c k m j = ∑ n : Fin 4096, xctarr2 V c (ix2 k n) * xmarr2 V c (ix2 n m) := by
  rw [← Fin.sum_univ_eq_sum_range (fun j => dotTerm2 V c k m j) 4096]
  refine Finset.sum_congr rfl fun n _ => ?_
  unfold dotTerm2
  rw [dif_pos n.isLt]

theorem tile2_eq (c : Dev nD) (t : Fin cfg2.N) (r : Fin 512) (q : Fin 1024) (k : Fin 2048) (m : Fin 4096)
    (hk : k.val = t.val / 16 * 512 + r.val) (hm : m.val = t.val / 4 % 4 * 1024 + q.val) :
    ∑ n : Fin 1024, xctblk2 V c t (ix2 r n) * xmblk2 V c t (ix2 n q)
      = ∑ j ∈ Finset.range 1024, dotTerm2 V c k m (t.val % 4 * 1024 + j) := by
  rw [← Fin.sum_univ_eq_sum_range (fun j => dotTerm2 V c k m (t.val % 4 * 1024 + j)) 1024]
  refine Finset.sum_congr rfl fun n _ => ?_
  have hn : t.val % 4 * 1024 + n.val < 4096 := by have := n.isLt; omega
  rw [xctblk2_apply V c t r n k ⟨t.val % 4 * 1024 + n.val, hn⟩ hk rfl,
    xmblk2_apply V c t n q ⟨t.val % 4 * 1024 + n.val, hn⟩ m rfl hm]
  unfold dotTerm2
  rw [dif_pos hn]

theorem acc2_update (c : Dev nD) (t : Fin cfg2.N) (xs : Vec Ideal S512x1024 .f32) (r : Fin 512) (q : Fin 1024)
    (k : Fin 2048) (m : Fin 4096) (hk : k.val = t.val / 16 * 512 + r.val) (hm : m.val = t.val / 4 % 4 * 1024 + q.val)
    (hxs : xs (ix2 r q) = ∑ j ∈ Finset.range (t.val % 4 * 1024), dotTerm2 V c k m j) :
    k2_pay2 (F := Ideal) xs (xctblk2 V c t) (xmblk2 V c t) (ix2 r q)
      = ∑ j ∈ Finset.range ((t.val % 4 + 1) * 1024), dotTerm2 V c k m j := by
  rw [pay2_apply2, tile2_eq V c t r q k m hk hm, hxs,
    show (t.val % 4 + 1) * 1024 = t.val % 4 * 1024 + 1024 from by omega, Finset.sum_range_add]

theorem acc2_step (c : Dev nD) (t : Fin cfg2.N)
    (ih : ¬t.val % 4 = 0 → ∀ (r : Fin 512) (q : Fin 1024) (k : Fin 2048) (m : Fin 4096),
      k.val = (t.val - 1) / 16 * 512 + r.val → m.val = (t.val - 1) / 4 % 4 * 1024 + q.val →
      accAt2 (F := Ideal) V c (t.val - 1) (Nat.lt_of_le_of_lt (Nat.sub_le _ _) t.isLt) (ix2 r q)
        = ∑ j ∈ Finset.range (((t.val - 1) % 4 + 1) * 1024), dotTerm2 V c k m j)
    (r : Fin 512) (q : Fin 1024) (k : Fin 2048) (m : Fin 4096)
    (hk : k.val = t.val / 16 * 512 + r.val) (hm : m.val = t.val / 4 % 4 * 1024 + q.val) :
    accAt2 (F := Ideal) V c t.val t.isLt (ix2 r q)
      = ∑ j ∈ Finset.range ((t.val % 4 + 1) * 1024), dotTerm2 V c k m j := by
  by_cases h0 : t.val % 4 = 0
  · rw [accAt2_reset V c t h0]
    refine acc2_update V c t (k2_pay1 (F := Ideal)) r q k m hk hm ?_
    rw [pay1_apply2, h0, Nat.zero_mul, Finset.range_zero, Finset.sum_empty]
  · have hprev := ih h0 r q k m (by omega) (by omega)
    rw [show ((t.val - 1) % 4 + 1) * 1024 = t.val % 4 * 1024 from by omega] at hprev
    rw [accAt2_step V c t h0]
    exact acc2_update V c t _ r q k m hk hm hprev

/-- After point n, entry (r, q) holds Σ_j (C·Xᵀ)[k, j] · (X·M)[j, m] over the first (n % 4 + 1)·1024 indices j. -/
theorem acc2_inv (c : Dev nD) : ∀ (n : ℕ) (hn : n < cfg2.N) (r : Fin 512) (q : Fin 1024) (k : Fin 2048) (m : Fin 4096),
    k.val = n / 16 * 512 + r.val → m.val = n / 4 % 4 * 1024 + q.val →
    accAt2 (F := Ideal) V c n hn (ix2 r q) = ∑ j ∈ Finset.range ((n % 4 + 1) * 1024), dotTerm2 V c k m j
  | 0, hn => acc2_step V c ⟨0, hn⟩ (fun h => absurd (Nat.zero_mod 4) h)
  | n + 1, hn => acc2_step V c ⟨n + 1, hn⟩ (fun _ => acc2_inv c n (Nat.lt_of_succ_lt hn))

abbrev distArr2 (c : Dev nD) : S2048x4096.Idx → EReal :=
  fun j => distOf (xctarr2 V c) (xmarr2 V c) (summarr2 V c) (sumcarr2 V c) ⟨(j 0).val, (j 0).isLt⟩ ⟨(j 1).val, (j 1).isLt⟩

theorem dist2_entry (c : Dev nD) (t : Fin cfg2.N) (h1 : t.val % 4 = 3) (r : Fin 512) (q : Fin 1024) (k : Fin 2048) (m : Fin 4096)
    (hk : k.val = t.val / 16 * 512 + r.val) (hm : m.val = t.val / 4 % 4 * 1024 + q.val) :
    k2_pay3 (F := Ideal) (summblk2 V c t) (accAt2 (F := Ideal) V c t.val t.isLt) (sumcblk2 V c t) (ix2 r q)
      = distOf (xctarr2 V c) (xmarr2 V c) (summarr2 V c) (sumcarr2 V c) k m := by
  rw [pay3_apply2, acc2_inv V c t.val t.isLt r q k m hk hm, summblk2_apply V c t 0 q m hm, sumcblk2_apply V c t r 0 k hk,
    show (t.val % 4 + 1) * 1024 = 4096 from by omega, dotTerm2_sum]
  rfl

theorem distblk2_apply (c : Dev nD) (t : Fin cfg2.N) (h1 : t.val % 4 = 3) (y : S512x1024.Idx) (i : S2048x4096.Idx)
    (hi0 : (i 0).val = t.val / 16 * 512 + (y 0).val) (hi1 : (i 1).val = t.val / 4 % 4 * 1024 + (y 1).val) :
    k2_pay3 (F := Ideal) (summblk2 V c t) (accAt2 (F := Ideal) V c t.val t.isLt) (sumcblk2 V c t) y = distArr2 V c i := by
  obtain ⟨r, q, rfl⟩ : ∃ (r : Fin 512) (q : Fin 1024), y = ix2 r q := ⟨y 0, y 1, eq_ix2 y⟩
  exact dist2_entry V c t h1 r q ⟨(i 0).val, (i 0).isLt⟩ ⟨(i 1).val, (i 1).isLt⟩ hi0 hi1

theorem flushed2_4_eq (c : Dev nD) (t : Fin cfg2.N) (hf : (cfg2.win 4).flush t = true) :
    (dat2 (F := Ideal) V c).flushed 4 t = ((cfg2.win 4).blk t).view.read (Elt Ideal) (distArr2 V c) := by
  have h1 : t.val % 4 = 3 := (flush2_4 t).mp hf
  show (cfg2.win 4).cut (grid2.coords t) ((dat2 (F := Ideal) V c).after 4 t) = _
  rw [after2_4]
  obtain ⟨-, -, -, -, -, -, -, -, e8, e9⟩ := idx2 t
  funext j
  show k2_pay3 (F := Ideal) (summblk2 V c t) (accAt2 (F := Ideal) V c t.val t.isLt) (sumcblk2 V c t) j = distArr2 V c (((cfg2.win 4).blk t).view.emb j)
  refine distblk2_apply V c t h1 j _ ?_ ?_
  · show win2_4.index t (0 : Fin 2) * 512 + 1 * (j 0).val = _
    rw [e8]; omega
  · show win2_4.index t (1 : Fin 2) * 1024 + 1 * (j 1).val = _
    rw [e9]; omega

theorem mem_blk2_4 (t : Fin cfg2.N) (i : S2048x4096.Idx) :
    i ∈ ((cfg2.win 4).blk t).view.set ↔ ∀ a : Fin 2, win2_4.index t a * S512x1024.size a ≤ (i a).val ∧ (i a).val < win2_4.index t a * S512x1024.size a + S512x1024.size a := by
  show i ∈ ((View.whole main_v2).slice (win2_4.rect t)).set ↔ _
  rw [View.set_slice_whole, Rect.mem_set_unit]
  exact Iff.rfl

theorem cover2_4 (i : S2048x4096.Idx) :
    ∃ t : Fin cfg2.N, (cfg2.win 4).flush t = true ∧ i ∈ ((cfg2.win 4).blk t).view.set := by
  have hi0 : (i 0).val < 2048 := (i 0).isLt
  have hi1 : (i 1).val < 4096 := (i 1).isLt
  obtain ⟨t, ht⟩ : ∃ t : Fin cfg2.N, t.val = (i 0).val / 512 * 16 + (i 1).val / 1024 * 4 + 3 :=
    ⟨⟨(i 0).val / 512 * 16 + (i 1).val / 1024 * 4 + 3, lt_of_lt_of_eq (by omega : _ < 64) N_2.symm⟩, rfl⟩
  obtain ⟨-, -, -, -, -, -, -, -, e8, e9⟩ := idx2 t
  refine ⟨t, (flush2_4 t).mpr (by omega), ?_⟩
  rw [mem_blk2_4]
  intro a
  match a with
  | ⟨0, _⟩ =>
    show win2_4.index t (0 : Fin 2) * 512 ≤ (i 0).val ∧ (i 0).val < win2_4.index t (0 : Fin 2) * 512 + 512
    rw [e8, ht]; omega
  | ⟨1, _⟩ =>
    show win2_4.index t (1 : Fin 2) * 1024 ≤ (i 1).val ∧ (i 1).val < win2_4.index t (1 : Fin 2) * 1024 + 1024
    rw [e9, ht]; omega

/-- Region 2 leaves sqrt(max(summ − 2·cross + sumc, 0)) of its four input arrays. -/
theorem arr2_4 (c : Dev nD) :
    (dat2 (F := Ideal) V c).arrAt 4 cfg2.N
      = (fun j : S2048x4096.Idx => distOf (xctarr2 V c) (xmarr2 V c) (summarr2 V c) (sumcarr2 V c) ⟨(j 0).val, (j 0).isLt⟩ ⟨(j 1).val, (j 1).isLt⟩) :=
  (dat2 (F := Ideal) V c).arrAt_eq_of_cover 4 (distArr2 V c) (flushed2_4_eq V c) cover2_4
end

end Cert.KernelIdeal.Hand

end
-- ==== Proof.KI.Final.lean ====
import proofs.«173626_j55740085568003_1_alg».proof.Proof.KI.Run
import proofs.«173626_j55740085568003_1_alg».proof.Proof.KI.R0.Value
import proofs.«173626_j55740085568003_1_alg».proof.Proof.KI.R1.Value
import proofs.«173626_j55740085568003_1_alg».proof.Proof.KI.R2.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

theorem V1_main_arg0 (c : Dev nD) : V1 m ρ c main_arg0 = m ((c : Thread nD τ).loc main_arg0) :=
  (exitOf_arr _ _ launch0 c 0).trans (((dat0 (V0 m ρ) c).arrAt_in 0 rfl _).trans (A_eq0 (V0 m ρ) c 0))
theorem V1_main_arg2 (c : Dev nD) : V1 m ρ c main_arg2 = m ((c : Thread nD τ).loc main_arg2) :=
  exitOf_of_ne _ _ c main_arg2 (show ∀ w, Pipeline.arrRef spec0 w ≠ main_arg2 from by decide)

theorem V2_xm (c : Dev nD) : V2 m ρ c main_v0_0
    = (fun j : S4096x4096.Idx => Cert.Spec.xm (m ((c : Thread nD τ).loc main_arg0)) (m ((c : Thread nD τ).loc main_arg1)) ⟨(j 0).val, (j 0).isLt⟩ ⟨(j 1).val, (j 1).isLt⟩) :=
  (exitOf_of_ne (p := 1) _ _ c main_v0_0 (show ∀ w, Pipeline.arrRef spec1 w ≠ main_v0_0 from by decide)).trans ((exitOf_arr _ _ launch0 c 2).trans (arr0_2 (V0 m ρ) c))
theorem V2_summ (c : Dev nD) : V2 m ρ c main_v0_1
    = (fun j : S1x4096.Idx => Cert.Spec.summ (m ((c : Thread nD τ).loc main_arg0)) (m ((c : Thread nD τ).loc main_arg1)) ⟨(j 1).val, (j 1).isLt⟩) :=
  (exitOf_of_ne (p := 1) _ _ c main_v0_1 (show ∀ w, Pipeline.arrRef spec1 w ≠ main_v0_1 from by decide)).trans ((exitOf_arr _ _ launch0 c 3).trans (arr0_3 (V0 m ρ) c))
theorem V2_xct (c : Dev nD) : V2 m ρ c main_v1_0
    = (fun j : S2048x4096.Idx => Cert.Spec.xc (m ((c : Thread nD τ).loc main_arg0)) (m ((c : Thread nD τ).loc main_arg2)) ⟨(j 1).val, (j 1).isLt⟩ ⟨(j 0).val, (j 0).isLt⟩) := by
  refine (exitOf_arr _ _ launch1 c 2).trans ((arr1_2 (V1 m ρ) c).trans ?_)
  show (fun j : S2048x4096.Idx => Cert.Spec.xc (V1 m ρ c main_arg0) (V1 m ρ c main_arg2) ⟨(j 1).val, (j 1).isLt⟩ ⟨(j 0).val, (j 0).isLt⟩) = _
  rw [V1_main_arg0, V1_main_arg2]
theorem V2_sumc (c : Dev nD) : V2 m ρ c main_v1_1
    = (fun j : S2048x1.Idx => Cert.Spec.sumc (m ((c : Thread nD τ).loc main_arg0)) (m ((c : Thread nD τ).loc main_arg2)) ⟨(j 0).val, (j 0).isLt⟩) := by
  refine (exitOf_arr _ _ launch1 c 3).trans ((arr1_3 (V1 m ρ) c).trans ?_)
  show (fun j : S2048x1.Idx => Cert.Spec.sumc (V1 m ρ c main_arg0) (V1 m ρ c main_arg2) ⟨(j 0).val, (j 0).isLt⟩) = _
  rw [V1_main_arg0, V1_main_arg2]

/-- Chaining the three regions, the result is G of the arguments. -/
theorem out_eq (c : Dev nD) :
    W3 m ρ c (Proc.devRef .tc main_v2)
      = Cert.Spec.G (m ((c : Thread nD τ).loc main_arg0)) (m ((c : Thread nD τ).loc main_arg1)) (m ((c : Thread nD τ).loc main_arg2)) := by
  refine (exitOf_arr _ _ launch2 c 4).trans ((arr2_4 (V2 m ρ) c).trans ?_)
  show (fun j : S2048x4096.Idx => distOf (V2 m ρ c main_v1_0) (V2 m ρ c main_v0_0) (V2 m ρ c main_v0_1) (V2 m ρ c main_v1_1)
    ⟨(j 0).val, (j 0).isLt⟩ ⟨(j 1).val, (j 1).isLt⟩) = _
  rw [V2_xct, V2_xm, V2_summ, V2_sumc]
  rfl

theorem value_run : θ_run defs (onTc (τ := τ) (main (F := Ideal))) ⟨m, fun _ => 0, ρ⟩ (fun r => ∀ c : Dev nD,
      r.2.mem ((c.tc : Thread nD τ).loc main_v2)
        = Cert.Spec.G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (out_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.RefSide.lean ====
import proofs.«173626_j55740085568003_1_alg».proof.Proof.Gen.ReferenceIdeal.Read
import proofs.«173626_j55740085568003_1_alg».proof.Proof.Spec

noncomputable section

open scoped BigOperators

namespace Cert.RefSide

open Cert.ReferenceIdeal Cert.ReferenceIdeal.Gen Idealize.ShloMosaic Idealize.ShloMosaic.ValueIdx

variable (X : (⟨S4096x512, .f32⟩ : BufTy).Contents (Elt Ideal))
  (M : (⟨S512x4096, .f32⟩ : BufTy).Contents (Elt Ideal))
  (C : (⟨S2048x512, .f32⟩ : BufTy).Contents (Elt Ideal))

theorem xm_eq (n m : Fin 4096) :
    Read.val_main_v0 (F := Ideal) X M (ix2 n m) = Spec.xm X M n m := by
  rw [Read.val_main_v0_apply]
  unfold Spec.xm
  refine Finset.sum_congr rfl fun d _ => ?_
  have el : Read.lidx_main_v0 (ix2 n m) d = ix2 n d :=
    funext fun a => by match a with | ⟨0, _⟩ => rfl | ⟨1, _⟩ => rfl
  have er : Read.ridx_main_v0 (ix2 n m) d = ix2 d m :=
    funext fun a => by match a with | ⟨0, _⟩ => rfl | ⟨1, _⟩ => rfl
  rw [el, er]

theorem xc_eq (n : Fin 4096) (k : Fin 2048) :
    Read.val_main_v2 (F := Ideal) X C (ix2 n k) = Spec.xc X C n k := by
  rw [Read.val_main_v2_apply]
  unfold Spec.xc
  refine Finset.sum_congr rfl fun d _ => ?_
  rw [Read.val_main_v1_apply]
  have el : Read.lidx_main_v2 (ix2 n k) d = ix2 n d :=
    funext fun a => by match a with | ⟨0, _⟩ => rfl | ⟨1, _⟩ => rfl
  have er : Read.idx_main_v1 (Read.ridx_main_v2 (ix2 n k) d) = ix2 k d :=
    funext fun a => by match a with | ⟨0, _⟩ => rfl | ⟨1, _⟩ => rfl
  rw [el, er]

theorem summ_eq (m : Fin 4096) :
    Read.val_main_v4 (F := Ideal) X M (ix1 m) = Spec.summ X M m := by
  rw [Read.val_main_v4_apply, Read.val_main_cst_apply, Ideal.ofBits_def, Ideal.ofBits_zero_f32, zero_add]
  unfold Spec.summ
  refine Finset.sum_congr rfl fun n _ => ?_
  have e : Read.idx_main_v4 (ix1 m) n = ix2 n m :=
    funext fun a => by match a with | ⟨0, _⟩ => rfl | ⟨1, _⟩ => rfl
  rw [Read.val_main_v3_apply, Ideal.mulf_def, e, xm_eq]

theorem sumc_eq (k : Fin 2048) :
    Read.val_main_v13 (F := Ideal) X C (ix1 k) = Spec.sumc X C k := by
  rw [Read.val_main_v13_apply, Read.val_main_cst_1_apply, Ideal.ofBits_def, Ideal.ofBits_zero_f32, zero_add]
  unfold Spec.sumc
  refine Finset.sum_congr rfl fun n _ => ?_
  have e : Read.idx_main_v13 (ix1 k) n = ix2 n k :=
    funext fun a => by match a with | ⟨0, _⟩ => rfl | ⟨1, _⟩ => rfl
  rw [Read.val_main_v12_apply, Ideal.mulf_def, e, xc_eq]

theorem cross_eq (k : Fin 2048) (m : Fin 4096) :
    Read.val_main_v7 (F := Ideal) X M C (ix2 k m) = Spec.cross X M C k m := by
  rw [Read.val_main_v7_apply]
  unfold Spec.cross
  refine Finset.sum_congr rfl fun n _ => ?_
  rw [Read.val_main_v6_apply]
  have el : Read.idx_main_v6 (Read.lidx_main_v7 (ix2 k m) n) = ix2 n k :=
    funext fun a => by match a with | ⟨0, _⟩ => rfl | ⟨1, _⟩ => rfl
  have er : Read.ridx_main_v7 (ix2 k m) n = ix2 n m :=
    funext fun a => by match a with | ⟨0, _⟩ => rfl | ⟨1, _⟩ => rfl
  rw [el, er, xc_eq, xm_eq]

theorem ref_apply (k : Fin 2048) (m : Fin 4096) :
    Read.val_main_v19 (F := Ideal) X M C (ix2 k m) = Spec.dist X M C k m := by
  rw [Read.val_main_v19_apply, Read.val_main_v18_apply, Read.val_main_v16_apply, Read.val_main_v11_apply,
    Read.val_main_v10_apply, Read.val_main_v5_apply, Read.val_main_v9_apply, Read.val_main_v8_apply,
    Read.val_main_cst_0_apply, Read.val_main_v15_apply, Read.val_main_v14_apply, Read.val_main_v17_apply,
    Read.val_main_cst_2_apply]
  have e4 : Read.idx_main_v5 (Read.idx_main_v10 (ix2 k m)) = ix1 m :=
    funext fun a => by match a with | ⟨0, _⟩ => rfl
  have e13 : Read.idx_main_v14 (Read.idx_main_v15 (ix2 k m)) = ix1 k :=
    funext fun a => by match a with | ⟨0, _⟩ => rfl
  rw [e4, e13, summ_eq, sumc_eq, cross_eq]
  simp only [Ideal.hostUnary_sqrt_def, Ideal.maximumf_def, Ideal.addf_def, Ideal.subf_def, Ideal.mulf_def,
    Ideal.ofBits_def, Ideal.ofBits_zero_f32]
  rfl

/-- The reference's term, read stage by stage, is G. -/
theorem ref_eq (X : (⟨Cert.ReferenceIdeal.S4096x512, .f32⟩ : BufTy).Contents (Elt Ideal))
    (M : (⟨Cert.ReferenceIdeal.S512x4096, .f32⟩ : BufTy).Contents (Elt Ideal))
    (C : (⟨Cert.ReferenceIdeal.S2048x512, .f32⟩ : BufTy).Contents (Elt Ideal)) :
    Cert.ReferenceIdeal.Read.val_main_v19 (F := Ideal) X M C = Cert.Spec.G X M C := by
  funext i
  obtain ⟨k, m, rfl⟩ : ∃ (k : Fin 2048) (m : Fin 4096), i = ix2 k m := ⟨_, _, eq_ix2 i⟩
  exact ref_apply X M C k m

end Cert.RefSide

end
-- ==== Proof.lean ====
/-
  Both programs compute dist(k, m) = sqrt(max((summ m − 2·cross k m) + sumc k, 0)) of X·M and X·Cᵀ (Spec.lean); only
  commutativity and associativity of + and · on the extended reals are used, so the precondition is never opened.
-/
import proofs.«173626_j55740085568003_1_alg».proof.Defs
import proofs.«173626_j55740085568003_1_alg».proof.Proof.KI.Final
import proofs.«173626_j55740085568003_1_alg».proof.Proof.RefSide
import proofs.«173626_j55740085568003_1_alg».proof.Proof.Gen.Kernel
import proofs.«173626_j55740085568003_1_alg».proof.Proof.Gen.KernelIdeal
import proofs.«173626_j55740085568003_1_alg».proof.Proof.Gen.ReferenceIdeal
import proofs.«173626_j55740085568003_1_alg».proof.Proof.Gen.ReferenceIdeal.Run
import proofs.«173626_j55740085568003_1_alg».proof.Proof.Gen.ReferenceIdeal.Read
import proofs.«173626_j55740085568003_1_alg».proof.Proof.Gen.Pre_finite_inputs

noncomputable section

namespace Cert.Proof

open Idealize.ShloMosaic Idealize.SL.Sem

theorem frame_ki : @Cert.frame_KernelIdeal Cert.KernelIdeal.Gen.facts Cert.Pre_finite_inputs.Gen.facts :=
  fun m ρ _ => Cert.KernelIdeal.Hand.frame m ρ

/-- The printed kernel and its idealization are the same program text, and the frame above is proved at every float
    instance; the printed kernel's frame is that theorem at its own instance, the two statements being definitionally equal. -/
theorem frame_k : @Cert.frame_Kernel Cert.Kernel.Gen.facts Cert.Pre_finite_inputs.Gen.facts :=
  fun m ρ _ => cast (by sl_kernel_rfl) (Cert.KernelIdeal.Hand.frame (F := Bits) m ρ)

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefSide.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
